-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_v63 : IVec S_ 1) (main_v65 : IVec S2x640000 1) (main_v67 : IVec S2x640000 1) : IVec S_ 1 :=
  let main_v68 : IVec S2x640000 1 := andi main_v65 main_v67
  let main_c_26 : IVec S_ 1 := constantI S_ 1 1#1
  let main_v69 : IVec S_ 1 := (fun x v => Host.reduce IntOp.andi x v reducesTo_S2x640000_S_d0_1 h_S_) main_v68 main_c_26
  let main_v70 : IVec S_ 1 := andi main_v63 main_v69
  main_v70

def fn_part3 {F : FTy → Type} [FloatOps F] (main_arg1 : IVec S2x640000 32) (main_arg12 : FVec F S128x128 .f32) (main_arg13 : FVec F S128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg1 main_v64
  let main_c_25 : IVec S_ 32 := constantI S_ 32 10000#32
  let main_v66 : IVec S2x640000 32 := broadcastInDim S2x640000 ![] bcast_S_S2x640000 main_c_25
  let main_v67 : IVec S2x640000 1 := cmpi .slt main_arg1 main_v66
  fn_part4 (F := F) main_v63 main_v65 main_v67

def fn_part2 {F : FTy → Type} [FloatOps F] (main_arg1 : IVec S2x640000 32) (main_arg8 : FVec F S128x1 .f32) (main_arg9 : FVec F S1 .f32) (main_arg10 : FVec F S128x1 .f32) (main_arg11 : FVec F S1 .f32) (main_arg12 : FVec F S128x128 .f32) (main_arg13 : FVec F S128 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg1 main_arg12 main_arg13 main_v48 main_v49 main_v50

def fn_part1 {F : FTy → Type} [FloatOps F] (main_arg1 : IVec S2x640000 32) (main_arg5 : FVec F S128 .f32) (main_arg6 : FVec F S128x16 .f32) (main_arg7 : FVec F S16 .f32) (main_arg8 : FVec F S128x1 .f32) (main_arg9 : FVec F S1 .f32) (main_arg10 : FVec F S128x1 .f32) (main_arg11 : FVec F S1 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S10000x128 .f32) (main_arg1 : IVec S2x640000 32) (main_arg2 : FVec F S128x128 .f32) (main_arg3 : FVec F S128 .f32) (main_arg4 : FVec F S128x128 .f32) (main_arg5 : FVec F S128 .f32) (main_arg6 : FVec F S128x16 .f32) (main_arg7 : FVec F S16 .f32) (main_arg8 : FVec F S128x1 .f32) (main_arg9 : FVec F S1 .f32) (main_arg10 : FVec F S128x1 .f32) (main_arg11 : FVec F S1 .f32) (main_arg12 : FVec F S128x128 .f32) (main_arg13 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S128x2 : Shape := ⟨2, ![128, 2]⟩
abbrev S1x128 : Shape := ⟨2, ![1, 128]⟩
abbrev S1x16 : Shape := ⟨2, ![1, 16]⟩
abbrev S2 : Shape := ⟨1, ![2]⟩
abbrev S1x2 : Shape := ⟨2, ![1, 2]⟩
abbrev S2560x128 : Shape := ⟨2, ![2560, 128]⟩
abbrev S2560x2560 : Shape := ⟨2, ![2560, 2560]⟩
abbrev S2560x16 : Shape := ⟨2, ![2560, 16]⟩
abbrev S2560 : Shape := ⟨1, ![2560]⟩
abbrev S2560x1 : Shape := ⟨2, ![2560, 1]⟩
abbrev S2560x2 : Shape := ⟨2, ![2560, 2]⟩
abbrev S2560x110 : Shape := ⟨2, ![2560, 110]⟩
abbrev S10000x16 : Shape := ⟨2, ![10000, 16]⟩
abbrev S10000x1 : Shape := ⟨2, ![10000, 1]⟩

abbrev nBuf : Space → Nat
  | .hbm => 99
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S10000, .i32⟩
  | .hbm, ⟨15, _⟩ => ⟨S1x640000, .i32⟩
  | .hbm, ⟨16, _⟩ => ⟨S640000, .i32⟩
  | .hbm, ⟨17, _⟩ => ⟨S650000, .i32⟩
  | .hbm, ⟨18, _⟩ => ⟨S1x640000, .i32⟩
  | .hbm, ⟨19, _⟩ => ⟨S640000, .i32⟩
  | .hbm, ⟨20, _⟩ => ⟨S650000, .i32⟩
  | .hbm, ⟨21, _⟩ => ⟨S_, .f32⟩
  | .hbm, ⟨22, _⟩ => ⟨S650000, .f32⟩
  | .hbm, ⟨23, _⟩ => ⟨S_, .f32⟩
  | .hbm, ⟨24, _⟩ => ⟨S10000, .f32⟩
  | .hbm, ⟨25, _⟩ => ⟨S650000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .i1⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000, .f32⟩
  | .hbm, ⟨34, _⟩ => ⟨S_, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000, .f32⟩
  | .hbm, ⟨56, _⟩ => ⟨S650000, .f32⟩
  | .hbm, ⟨57, _⟩ => ⟨S_, .f32⟩
  | .hbm, ⟨58, _⟩ => ⟨S10240x10240, .f32⟩
  | .hbm, ⟨59, _⟩ => ⟨S_, .i32⟩
  | .hbm, ⟨60, _⟩ => ⟨S650000, .i32⟩
  | .hbm, ⟨61, _⟩ => ⟨S650000, .i1⟩
  | .hbm, ⟨62, _⟩ => ⟨S_, .i32⟩
  | .hbm, ⟨63, _⟩ => ⟨S650000, .i32⟩
  | .hbm, ⟨64, _⟩ => ⟨S650000, .i32⟩
  | .hbm, ⟨65, _⟩ => ⟨S650000, .i32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000x1, .i32⟩
  | .hbm, ⟨75, _⟩ => ⟨S650000x2, .i32⟩
  | .hbm, ⟨76, _⟩ => ⟨S10240x10240, .f32⟩
  | .hbm, ⟨77, _⟩ => ⟨S10240x10240, .bf16⟩
  | .hbm, ⟨78, _⟩ => ⟨S_, .f32⟩
  | .hbm, ⟨79, _⟩ => ⟨S10240x128, .f32⟩
  | .hbm, ⟨80, _⟩ => ⟨S_, .i32⟩
  | .hbm, ⟨81, _⟩ => ⟨S1, .i32⟩
  | .hbm, ⟨82, _⟩ => ⟨S10240x128, .f32⟩
  | .hbm, ⟨83, _⟩ => ⟨S128x2, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x16, .f32⟩
  | .hbm, ⟨88, _⟩ => ⟨S2, .f32⟩
  | .hbm, ⟨89, _⟩ => ⟨S1x2, .f32⟩
  | .hbm, ⟨90, _⟩ => ⟨S10240x128, .bf16⟩
  | .hbm, ⟨91, _⟩ => ⟨S10240x128, .f32⟩
  | .hbm, ⟨92, _⟩ => ⟨S10240x128, .bf16⟩
  | .hbm, ⟨93, _⟩ => ⟨S10240x128, .f32⟩
  | .hbm, ⟨94, _⟩ => ⟨S10000x16, .f32⟩
  | .hbm, ⟨95, _⟩ => ⟨S10000x1, .f32⟩
  | .hbm, ⟨96, _⟩ => ⟨S10000, .f32⟩
  | .hbm, ⟨97, _⟩ => ⟨S10000x1, .f32⟩
  | .hbm, ⟨98, _⟩ => ⟨S10000, .f32⟩
  | .local _ .vmem, ⟨0, _⟩ => ⟨S2560x128, .f32⟩
  | .local _ .vmem, ⟨1, _⟩ => ⟨S2560x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S2560x128, .bf16⟩
  | .local _ .vmem, ⟨6, _⟩ => ⟨S2560x128, .bf16⟩
  | .local _ .vmem, ⟨7, _⟩ => ⟨S2560x128, .f32⟩
  | .local _ .vmem, ⟨8, _⟩ => ⟨S2560x128, .f32⟩
  | .local _ .vmem, ⟨9, _⟩ => ⟨S2560x2560, .bf16⟩
  | .local _ .vmem, ⟨10, _⟩ => ⟨S2560x2560, .bf16⟩
  | .local _ .vmem, ⟨11, _⟩ => ⟨S2560x128, .bf16⟩
  | .local _ .vmem, ⟨12, _⟩ => ⟨S2560x128, .bf16⟩
  | .local _ .vmem, ⟨13, _⟩ => ⟨S1x128, .f32⟩
  | .local _ .vmem, ⟨14, _⟩ => ⟨S128x128, .f32⟩
  | .local _ .vmem, ⟨15, _⟩ => ⟨S2560x128, .bf16⟩
  | .local _ .vmem, ⟨16, _⟩ => ⟨S2560x128, .bf16⟩
  | .local _ .vmem, ⟨17, _⟩ => ⟨S2560x128, .f32⟩
  | .local _ .vmem, ⟨18, _⟩ => ⟨S2560x2560, .bf16⟩
  | .local _ .vmem, ⟨19, _⟩ => ⟨S2560x2560, .bf16⟩
  | .local _ .vmem, ⟨20, _⟩ => ⟨S2560x128, .bf16⟩
  | .local _ .vmem, ⟨21, _⟩ => ⟨S2560x128, .bf16⟩
  | .local _ .vmem, ⟨22, _⟩ => ⟨S1x128, .f32⟩
  | .local _ .vmem, ⟨23, _⟩ => ⟨S2560x128, .f32⟩
  | .local _ .vmem, ⟨24, _⟩ => ⟨S2560x128, .f32⟩
  | .local _ .vmem, ⟨25, _⟩ => ⟨S128x16, .f32⟩
  | .local _ .vmem, ⟨26, _⟩ => ⟨S1x16, .f32⟩
  | .local _ .vmem, ⟨27, _⟩ => ⟨S128x2, .f32⟩
  | .local _ .vmem, ⟨28, _⟩ => ⟨S1x2, .f32⟩
  | .local _ .vmem, ⟨29, _⟩ => ⟨S2560x128, .f32⟩
  | .local _ .vmem, ⟨30, _⟩ => ⟨S2560x128, .f32⟩
  | .local _ .vmem, ⟨31, _⟩ => ⟨S2560x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_10 : Ref sig .tc := ⟨.hbm, 66, rfl⟩
abbrev main_v38 : Ref sig .tc := ⟨.hbm, 67, rfl⟩
abbrev main_v39 : Ref sig .tc := ⟨.hbm, 68, rfl⟩
abbrev main_c_11 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58_0 : Ref sig .tc := ⟨.hbm, 90, rfl⟩
abbrev main_v58_1 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg8_1 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2560x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2560x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2560x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2560x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2560x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2560x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S2560x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  concatenates_S128x1_S128x1_S128x2_d1 : Shape.Concatenates [S128x1, S128x1] S128x2 1
  shapeCasts_S128_S1x128 : S128.ShapeCasts S1x128
  shapeCasts_S16_S1x16 : S16.ShapeCasts S1x16
  concatenates_S1_S1_S2_d0 : Shape.Concatenates [S1, S1] S2 0
  shapeCasts_S2_S1x2 : S2.ShapeCasts S1x2
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S128x128_S128x128_0_0 : ∀ a, (![0, 0] : Fin 2 → Nat) a + S128x128.size a ≤ S128x128.size a
  h_S128x128 : 0 < S128x128.numel
  packedbf16_S2560x128_S2560x128_0_0 : (Rect.unit (s := S2560x128) ![0, 0] S2560x128.size inb_S2560x128_S2560x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  inb_S2560x2560_S2560x2560_0_0 : ∀ a, (![0, 0] : Fin 2 → Nat) a + S2560x2560.size a ≤ S2560x2560.size a
  h_S2560x2560 : 0 < S2560x2560.numel
  shapeCasts_S2560x2560_S2560x2560 : S2560x2560.ShapeCasts S2560x2560
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2560x16 : S1x16.Broadcasts S2560x16
  reduces_S2560x16_S2560 : S2560x16.Reduces [1] S2560
  shapeCasts_S2560_S2560x1 : S2560.ShapeCasts S2560x1
  broadcasts_S2560x1_S2560x16 : S2560x1.Broadcasts S2560x16
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2560x2 : S1x2.Broadcasts S2560x2
  concatenates_S2560x16_S2560x2_S2560x110_S2560x128_d1 : Shape.Concatenates [S2560x16, S2560x2, S2560x110] S2560x128 1
  slices_S10240x128_S10000x16_0_0 : S10240x128.Slices ![0, 0] S10000x16
  slices_S10240x128_S10000x1_0_16 : S10240x128.Slices ![0, 16] S10000x1
  shapeCasts_S10000x1_S10000 : S10000x1.ShapeCasts S10000
  slices_S10240x128_S10000x1_0_17 : S10240x128.Slices ![0, 17] S10000x1
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  scatter_S10240x128_S1_S10000x128_01_n_0_0_wf : ScatterDims.WF S10240x128 S1 S10000x128 [0, 1] [] [0] 0
  dot_S2560x128_S128x128_S2560x128_1_0_0_1_n_n_wf : DotDims.WF S2560x128 S128x128 S2560x128 [1] [0] [0] [1] [] []
  dot_S2560x2560_S2560x128_S2560x128_1_0_0_1_n_n_wf : DotDims.WF S2560x2560 S2560x128 S2560x128 [1] [0] [0] [1] [] []
  dot_S2560x128_S128x16_S2560x16_1_0_0_1_n_n_wf : DotDims.WF S2560x128 S128x16 S2560x16 [1] [0] [0] [1] [] []
  dot_S2560x128_S128x2_S2560x2_1_0_0_1_n_n_wf : DotDims.WF S2560x128 S128x2 S2560x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S10240x128.size a
  hwx0_0 : ∀ i : grid0.Coords, EltTy.bits .f32 = 32 ∨ (Rect.block (s := S10240x128) S2560x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2560x128.size a ≤ S10240x128.size a
  hwx0_4 : ∀ i : grid0.Coords, EltTy.bits .bf16 = 32 ∨ (Rect.block (s := S10240x128) S2560x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2560x128.size a ≤ S10240x128.size a
  hwx0_5 : ∀ i : grid0.Coords, EltTy.bits .f32 = 32 ∨ (Rect.block (s := S10240x128) S2560x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x2560.size a ≤ S10240x10240.size a
  hwx1_0 : ∀ i : grid1.Coords, EltTy.bits .bf16 = 32 ∨ (Rect.block (s := S10240x10240) S2560x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S10240x128.size a
  hwx1_1 : ∀ i : grid1.Coords, EltTy.bits .bf16 = 32 ∨ (Rect.block (s := S10240x128) S2560x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2560x128.size a ≤ S10240x128.size a
  hwx1_4 : ∀ i : grid1.Coords, EltTy.bits .bf16 = 32 ∨ (Rect.block (s := S10240x128) S2560x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2560x2560.size a ≤ S10240x10240.size a
  hwx2_0 : ∀ i : grid2.Coords, EltTy.bits .bf16 = 32 ∨ (Rect.block (s := S10240x10240) S2560x2560.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2560x128.size a ≤ S10240x128.size a
  hwx2_1 : ∀ i : grid2.Coords, EltTy.bits .bf16 = 32 ∨ (Rect.block (s := S10240x128) S2560x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2560x128.size a ≤ S10240x128.size a
  hwx2_3 : ∀ i : grid2.Coords, EltTy.bits .f32 = 32 ∨ (Rect.block (s := S10240x128) S2560x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x16.size a ≤ S128x16.size a
  hwx2_4 : ∀ i : grid2.Coords, EltTy.bits .f32 = 32 ∨ (Rect.block (s := S128x16) S128x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2560x128.size a ≤ S10240x128.size a
  hwx2_8 : ∀ i : grid2.Coords, EltTy.bits .f32 = 32 ∨ (Rect.block (s := S10240x128) S2560x128.size (cc2_transform_8 i) (hinb2_8 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def dot_S2560x2560_S2560x128_S2560x128_1_0_0_1_n_n : DotDims S2560x2560 S2560x128 S2560x128 where
  lhsContracting := [1]
  rhsContracting := [0]
  lhsNonContracting := [0]
  rhsNonContracting := [1]
  lhsBatch := []
  rhsBatch := []
  wf := dot_S2560x2560_S2560x128_S2560x128_1_0_0_1_n_n_wf
def dot_S2560x128_S128x16_S2560x16_1_0_0_1_n_n : DotDims S2560x128 S128x16 S2560x16 where
  lhsContracting := [1]
  rhsContracting := [0]
  lhsNonContracting := [0]
  rhsNonContracting := [1]
  lhsBatch := []
  rhsBatch := []
  wf := dot_S2560x128_S128x16_S2560x16_1_0_0_1_n_n_wf
def dot_S2560x128_S128x2_S2560x2_1_0_0_1_n_n : DotDims S2560x128 S128x2 S2560x2 where
  lhsContracting := [1]
  rhsContracting := [0]
  lhsNonContracting := [0]
  rhsNonContracting := [1]
  lhsBatch := []
  rhsBatch := []
  wf := dot_S2560x128_S128x2_S2560x2_1_0_0_1_n_n_wf

abbrev win0_0 : Pipeline.Window sig grid0 :=
  Pipeline.Window.ofSpec (Memref.whole main_v50) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58_0) S2560x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58_1) S2560x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S2560x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58_0) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S2560x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v47) S2560x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S2560x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58_1) S2560x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S2560x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S650000x128 : Shape := ⟨2, ![650000, 128]⟩
abbrev S10000x16 : Shape := ⟨2, ![10000, 16]⟩
abbrev S1x16 : Shape := ⟨2, ![1, 16]⟩
abbrev S10000x1 : Shape := ⟨2, ![10000, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S10000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S128x1, .f32⟩
  | 9 => ⟨S1, .f32⟩
  | 10 => ⟨S128x1, .f32⟩
  | 11 => ⟨S1, .f32⟩
  | 12 => ⟨S128x128, .f32⟩
  | 13 => ⟨S128, .f32⟩
  | 14 => ⟨S10000, .i32⟩
  | 15 => ⟨S1x640000, .i32⟩
  | 16 => ⟨S640000, .i32⟩
  | 17 => ⟨S650000, .i32⟩
  | 18 => ⟨S1x640000, .i32⟩
  | 19 => ⟨S640000, .i32⟩
  | 20 => ⟨S650000, .i32⟩
  | 21 => ⟨S_, .f32⟩
  | 22 => ⟨S650000, .f32⟩
  | 23 => ⟨S_, .f32⟩
  | 24 => ⟨S10000, .f32⟩
  | 25 => ⟨S650000x1, .i32⟩
  | 26 => ⟨S10000, .f32⟩
  | 27 => ⟨S_, .f32⟩
  | 28 => ⟨S10000, .f32⟩
  | 29 => ⟨S10000, .i1⟩
  | 30 => ⟨S_, .f32⟩
  | 31 => ⟨S10000, .f32⟩
  | 32 => ⟨S10000, .f32⟩
  | 33 => ⟨S10000, .f32⟩
  | 34 => ⟨S_, .f32⟩
  | 35 => ⟨S_, .f32⟩
  | 36 => ⟨S10000, .f32⟩
  | 37 => ⟨S10000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000, .f32⟩
  | 56 => ⟨S650000, .f32⟩
  | 57 => ⟨S10000x128, .f32⟩
  | 58 => ⟨S1x128, .f32⟩
  | 59 => ⟨S10000x128, .f32⟩
  | 60 => ⟨S10000x128, .f32⟩
  | 61 => ⟨S10000x128, .f32⟩
  | 62 => ⟨S_, .i32⟩
  | 63 => ⟨S650000, .i32⟩
  | 64 => ⟨S650000, .i1⟩
  | 65 => ⟨S_, .i32⟩
  | 66 => ⟨S650000, .i32⟩
  | 67 => ⟨S650000, .i32⟩
  | 68 => ⟨S650000, .i32⟩
  | 69 => ⟨S650000x1, .i32⟩
  | 70 => ⟨S650000x128, .f32⟩
  | 71 => ⟨S650000x1, .f32⟩
  | 72 => ⟨S650000x128, .f32⟩
  | 73 => ⟨S650000x128, .f32⟩
  | 74 => ⟨S_, .f32⟩
  | 75 => ⟨S10000x128, .f32⟩
  | 76 => ⟨S650000x1, .i32⟩
  | 77 => ⟨S10000x128, .f32⟩
  | 78 => ⟨S1x128, .f32⟩
  | 79 => ⟨S10000x128, .f32⟩
  | 80 => ⟨S10000x128, .f32⟩
  | 81 => ⟨S_, .f32⟩
  | 82 => ⟨S10000x128, .f32⟩
  | 83 => ⟨S10000x128, .f32⟩
  | 84 => ⟨S10000x128, .f32⟩
  | 85 => ⟨S_, .i32⟩
  | 86 => ⟨S650000, .i32⟩
  | 87 => ⟨S650000, .i1⟩
  | 88 => ⟨S_, .i32⟩
  | 89 => ⟨S650000, .i32⟩
  | 90 => ⟨S650000, .i32⟩
  | 91 => ⟨S650000, .i32⟩
  | 92 => ⟨S650000x1, .i32⟩
  | 93 => ⟨S650000x128, .f32⟩
  | 94 => ⟨S650000x1, .f32⟩
  | 95 => ⟨S650000x128, .f32⟩
  | 96 => ⟨S650000x128, .f32⟩
  | 97 => ⟨S_, .f32⟩
  | 98 => ⟨S10000x128, .f32⟩
  | 99 => ⟨S650000x1, .i32⟩
  | 100 => ⟨S10000x128, .f32⟩
  | 101 => ⟨S1x128, .f32⟩
  | 102 => ⟨S10000x128, .f32⟩
  | 103 => ⟨S10000x128, .f32⟩
  | 104 => ⟨S10000x128, .f32⟩
  | 105 => ⟨S10000x16, .f32⟩
  | 106 => ⟨S1x16, .f32⟩
  | 107 => ⟨S10000x16, .f32⟩
  | 108 => ⟨S10000x16, .f32⟩
  | 109 => ⟨S_, .f32⟩
  | 110 => ⟨S10000, .f32⟩
  | 111 => ⟨S_, .f32⟩
  | 112 => ⟨S10000, .f32⟩
  | 113 => ⟨S10000, .f32⟩
  | 114 => ⟨S10000x1, .f32⟩
  | 115 => ⟨S10000x16, .f32⟩
  | 116 => ⟨S10000x16, .f32⟩
  | 117 => ⟨S10000x16, .f32⟩
  | 118 => ⟨S_, .f32⟩
  | 119 => ⟨S10000, .f32⟩
  | 120 => ⟨S10000x1, .f32⟩
  | 121 => ⟨S10000x1, .f32⟩
  | 122 => ⟨S10000x16, .f32⟩
  | 123 => ⟨S10000x16, .f32⟩
  | 124 => ⟨S10000x1, .f32⟩
  | 125 => ⟨S1x1, .f32⟩
  | 126 => ⟨S10000x1, .f32⟩
  | 127 => ⟨S10000x1, .f32⟩
  | _ => ⟨S10000x128, .f32⟩

abbrev hbmTy0_1 (i : Nat) : BufTy := match i % 128 with
  | 0 => ⟨S10000, .f32⟩
  | 1 => ⟨S10000x1, .f32⟩
  | 2 => ⟨S1x1, .f32⟩
  | 3 => ⟨S10000x1, .f32⟩
  | 4 => ⟨S10000x1, .f32⟩
  | 5 => ⟨S10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call2_cst : Ref sig .tc := ⟨.hbm, 109, rfl⟩
abbrev main_call2_v0 : Ref sig .tc := ⟨.hbm, 110, rfl⟩
abbrev main_call2_cst_0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_cst_1 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x16_S10000x16_1_0_0_1_n_n_wf : DotDims.WF S10000x128 S128x16 S10000x16 [1] [0] [0] [1] [] []
  dot_S10000x128_S128x1_S10000x1_1_0_0_1_n_n_wf : DotDims.WF S10000x128 S128x1 S10000x1 [1] [0] [0] [1] [] []

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.LibRegion.lean ====
import Idealize.ShloMosaic.Lib.Pipeline.FrameBody
import Idealize.ShloMosaic.Lib.Pipeline.Value

noncomputable section

namespace Idealize.ShloMosaic.View

theorem zero2 : (![0, 0] : Fin 2 → Nat) = fun _ => 0 := funext fun a => by fin_cases a <;> rfl

variable {sig : RefSig} {κ : Kind} {sp : Space} {S : Shape} {e : EltTy} {Val : EltTy → Type} [∀ e, Nonempty (Val e)]

/-- The last store covers the whole buffer, so what is read back is that store's payload, whatever lay under it. -/
theorem read_writes_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f (⟨Rect.unit off S.size inb, w⟩ :: L)) = w :=
  (read_writes_eq_canon v f _ fun y => ⟨_, List.mem_cons_self, mem_set_unit_zero h inb y⟩).trans
    (canon_cons_unit_zero h inb w L)

end Idealize.ShloMosaic.View

end
-- ==== Proof.KBody0.lean ====
import proofs.«421950_j9620726743150_3_alg».proof.Proof.Gen.Kernel
import proofs.«421950_j9620726743150_3_alg».proof.Proof.Gen.Kernel.Skeleton
import proofs.«421950_j9620726743150_3_alg».proof.Proof.Gen.Kernel.Launch
import proofs.«421950_j9620726743150_3_alg».proof.Proof.LibRegion
import Idealize.ShloMosaic.Lib.Writes
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Each output gets one whole-block store, so it ends at that store's payload; the inputs are only read. -/
theorem proj_x_run (c : Dev nD) (E : Set ℕ) (i : grid0.Coords)
    {mX : Memref sig .tc .vmem S2560x128 .f32} {hX : mX.IsWhole}
    {mW1 : Memref sig .tc .vmem S128x128 .f32} {hW1 : mW1.IsWhole}
    {mWd : Memref sig .tc .vmem S128x128 .f32} {hWd : mWd.IsWhole}
    {mBd : Memref sig .tc .vmem S1x128 .f32} {hBd : mBd.IsWhole}
    {mP : Memref sig .tc .vmem S2560x128 .bf16} {hP : mP.IsWhole}
    {mS : Memref sig .tc .vmem S2560x128 .f32} {hS : mS.IsWhole}
    (x : Vec F S2560x128 .f32) (w1 wd : Vec F S128x128 .f32) (bd : Vec F S1x128 .f32) (K : PUnit → sProp 𝕄) :
    iprop(owns (c : Thread nD τ) mX fullShare x ∗ owns (c : Thread nD τ) mW1 fullShare w1
        ∗ owns (c : Thread nD τ) mWd fullShare wd ∗ owns (c : Thread nD τ) mBd fullShare bd
        ∗ (∃ d, owns (c : Thread nD τ) mP fullShare d) ∗ (∃ d, owns (c : Thread nD τ) mS fullShare d)
        ∗ (iprop(owns (c : Thread nD τ) mX fullShare x ∗ owns (c : Thread nD τ) mW1 fullShare w1
            ∗ owns (c : Thread nD τ) mWd fullShare wd ∗ owns (c : Thread nD τ) mBd fullShare bd
            ∗ owns (c : Thread nD τ) mP fullShare (k0_pay2 x w1)
            ∗ owns (c : Thread nD τ) mS fullShare (k0_pay3 x wd bd)) -∗ K ⟨⟩))
      ⊢ wp frame (wpE (defs₀ (F := F)) Variants.none c none) E
          (cc0__proj_x_kernel i mX hX mW1 hW1 mWd hWd mBd hBd mP hP mS hS) K := by
  simp only [cc0__proj_x_kernel_eq_skeleton]; unfold cc0__proj_x_kernel_skel
  unfold owns
  iintro ⟨⟨%fX, %hfX, HX⟩, ⟨%fW1, %hfW1, HW1⟩, ⟨%fWd, %hfWd, HWd⟩, ⟨%fBd, %hfBd, HBd⟩, ⟨%dP, %fP, -, HP⟩, ⟨%dS, %fS, -, HS⟩, Hk⟩
  subst hfX hfW1 hfWd hfBd
  sl_exec
  sl_step
  iapply Hk
  isplitl [HX]; · iexists fX; isplitr; (· ipureintro; rfl); iexact HX
  isplitl [HW1]; · iexists fW1; isplitr; (· ipureintro; rfl); iexact HW1
  isplitl [HWd]; · iexists fWd; isplitr; (· ipureintro; rfl); iexact HWd
  isplitl [HBd]; · iexists fBd; isplitr; (· ipureintro; rfl); iexact HBd
  isplitl [HP]
  all_goals
    iexists _; isplitr; swap; (· first | iexact HP | iexact HS); ipureintro
    refine (View.read_writes_unit_zero _ _ View.zero2 _ _ _).trans ?_
    simp only [View.readAt_eq_ld, View.ld_unit_zero (S := S2560x128) View.zero2,
      View.ld_unit_zero (S := S128x128) View.zero2, View.ld_unit_zero (S := S1x128) View.zero2]

end Cert.Kernel.Hand

end
-- ==== Proof.KDat0.lean ====
import proofs.«421950_j9620726743150_3_alg».proof.Proof.Gen.Kernel.Launch
import proofs.«421950_j9620726743150_3_alg».proof.Proof.Gen.Kernel.Skeleton
import proofs.«421950_j9620726743150_3_alg».proof.Proof.Gen.Kernel.Points
import proofs.«421950_j9620726743150_3_alg».proof.Proof.KBody0
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) (iblk0 V c 3 t) := by dsimp only [dat0]

/-- The body leaves every input block as it found it. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (k0_pay2 (iblk0 V c 0 t) (iblk0 V c 1 t))
    ∗ owns (c : Thread nD τ) (st0_5 t) fullShare (k0_pay3 (iblk0 V c 0 t) (iblk0 V c 2 t) (iblk0 V c 3 t)))

/-- Every point runs the same body on its blocks; the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3]
  iintro ⟨HΦ, Ho, ⟨%d0, H0⟩, ⟨%d1, H1⟩, ⟨%d2, H2⟩, ⟨%d3, H3⟩, ⟨%d4, H4⟩, ⟨%d5, H5⟩⟩
  iapply (proj_x_run c Set.univ _ _ _ _ _ _)
  iframe H0 H1 H2 H3
  isplitl [H4]; · iexists _; iexact H4
  isplitl [H5]; · iexists _; iexact H5
  iintro ⟨H0, H1, H2, H3, H4, H5⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Hand

end
-- ==== Proof.KDat1.lean ====
import proofs.«421950_j9620726743150_3_alg».proof.Proof.Gen.Kernel
import proofs.«421950_j9620726743150_3_alg».proof.Proof.Gen.Kernel.Skeleton
import proofs.«421950_j9620726743150_3_alg».proof.Proof.Gen.Kernel.Launch
import proofs.«421950_j9620726743150_3_alg».proof.Proof.Gen.Kernel.Points
import proofs.«421950_j9620726743150_3_alg».proof.Proof.LibRegion
import Idealize.ShloMosaic.Lib.Writes
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev accM1 : Memref sig .tc .vmem S2560x128 .f32 := Memref.whole cc1_scratch0

abbrev IsFirst1 (t : Fin cfg1.N) : Prop :=
  Scalar.cmpi .ne (Scalar.extui (Scalar.cmpi .eq (BitVec.ofNat 32 ((grid1.coords t) 1).val) 0#32)) 0#32 = 1#1
abbrev IsLast1 (t : Fin cfg1.N) : Prop := k1_cond2 (grid1.coords t) = 1#1

section Runs

variable (c : Dev nD) (t : Fin cfg1.N)
  {M0 : Memref sig .tc .vmem S2560x2560 .bf16} (h0 : M0.IsWhole) {M1 : Memref sig .tc .vmem S2560x128 .bf16} (h1 : M1.IsWhole)
  {M2 : Memref sig .tc .vmem S1x128 .f32} (h2 : M2.IsWhole) {M3 : Memref sig .tc .vmem S128x128 .f32} (h3 : M3.IsWhole)
  {M4 : Memref sig .tc .vmem S2560x128 .bf16} (h4 : M4.IsWhole)
  (adj : Vec F S2560x2560 .bf16) (x : Vec F S2560x128 .bf16) (bias : Vec F S1x128 .f32) (wt : Vec F S128x128 .f32)
  (a : Vec F S2560x128 .f32)

local notation "AGG" => cc1__aggregate1_kernel (grid1.coords t) M0 h0 M1 h1 M2 h2 M3 h3 M4 h4 (Memref.whole cc1_scratch0) (Memref.isWhole_whole _)

/-- A step that is not a row block's last adds the block product to the accumulator, zeroed first at a first step. -/
theorem run_acc1 (hL : ¬ IsLast1 t) (O : sProp 𝕄) (Q : PUnit → sProp 𝕄) :
    iprop(owns (c : Thread nD τ) M0 fullShare adj ∗ owns (c : Thread nD τ) M1 fullShare x ∗ O ∗ owns (c : Thread nD τ) accM1 fullShare a
      ∗ (iprop(owns (c : Thread nD τ) M0 fullShare adj ∗ owns (c : Thread nD τ) M1 fullShare x ∗ O
          ∗ owns (c : Thread nD τ) accM1 fullShare (k1_pay2 (if IsFirst1 t then k1_pay1 else a) adj x)) -∗ Q ⟨⟩))
      ⊢ wp frame (wpE (defs₀ (F := F)) Variants.none c none) Set.univ AGG Q := by
  by_cases hF : IsFirst1 t
  all_goals
    first | rw [if_pos hF] | rw [if_neg hF]
    unfold owns
    iintro ⟨⟨%f0, %hf0, H0⟩, ⟨%f1, %hf1, H1⟩, HO, ⟨%fa, %hfa, Ha⟩, Hk⟩
    subst hf0 hf1 hfa
    sl_exec! (disch := assumption)
    sl_step
    iapply Hk
    isplitl [H0]; · iexists f0; isplitr; (· ipureintro; rfl); iexact H0
    isplitl [H1]; · iexists f1; isplitr; (· ipureintro; rfl); iexact H1
    isplitl [HO]; · iexact HO
    iexists _; isplitr; swap; (· iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2]

/-- A last step adds the block product; the output block is the rounded relu(sum + bias) · weights. -/
theorem run_last1 (hF : ¬ IsFirst1 t) (hL : IsLast1 t) (Q : PUnit → sProp 𝕄) :
    iprop(owns (c : Thread nD τ) M0 fullShare adj ∗ owns (c : Thread nD τ) M1 fullShare x
      ∗ owns (c : Thread nD τ) M2 fullShare bias ∗ owns (c : Thread nD τ) M3 fullShare wt
      ∗ (∃ d, owns (c : Thread nD τ) M4 fullShare d) ∗ owns (c : Thread nD τ) accM1 fullShare a
      ∗ (iprop(owns (c : Thread nD τ) M0 fullShare adj ∗ owns (c : Thread nD τ) M1 fullShare x
          ∗ owns (c : Thread nD τ) M2 fullShare bias ∗ owns (c : Thread nD τ) M3 fullShare wt
          ∗ owns (c : Thread nD τ) M4 fullShare (k1_pay3 (k1_pay2 a adj x) bias wt)
          ∗ owns (c : Thread nD τ) accM1 fullShare (k1_pay2 a adj x)) -∗ Q ⟨⟩))
      ⊢ wp frame (wpE (defs₀ (F := F)) Variants.none c none) Set.univ AGG Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, Hk⟩
  subst hf0 hf1 hf2 hf3 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  all_goals
    iexists _; isplitr; swap; (· first | iexact H4 | iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2,
      View.ld_unit_zero (S := S1x128) View.zero2, View.ld_unit_zero (S := S128x128) View.zero2]

end Runs

theorem isFirst1_iff : ∀ t : Fin cfg1.N, IsFirst1 t ↔ t.val % 4 = 0 :=
  (by decide +kernel : ∀ t : Fin grid1.N,
    (Scalar.cmpi .ne (Scalar.extui (Scalar.cmpi .eq (BitVec.ofNat 32 ((grid1.coords t) 1).val) 0#32)) 0#32 = 1#1) ↔ t.val % 4 = 0)
theorem isLast1_iff : ∀ t : Fin cfg1.N, IsLast1 t ↔ t.val % 4 = 3 :=
  (by decide +kernel : ∀ t : Fin grid1.N, k1_cond2 (grid1.coords t) = 1#1 ↔ t.val % 4 = 3)

/-- The output block is produced exactly at a row block's last step. -/
theorem outIdle1_of_last (t : Fin cfg1.N) (h : IsLast1 t) : idle1 4 (grid1.coords t) = false := by
  show (!(k1_cond2 (grid1.coords t) == 1#1)) = false
  rw [beq_iff_eq.mpr h]; rfl
theorem outIdle1_of_not_last (t : Fin cfg1.N) (h : ¬ IsLast1 t) : idle1 4 (grid1.coords t) = true := by
  show (!(k1_cond2 (grid1.coords t) == 1#1)) = true
  rw [beq_eq_false_iff_ne.mpr h]; rfl
theorem outFlush1_of_last (t : Fin cfg1.N) (h : IsLast1 t) : (cfg1.win 4).flush t = true :=
  (flush1_4 t).mpr ((isLast1_iff t).mp h)
theorem outFlush1_of_not_last (t : Fin cfg1.N) (h : ¬ IsLast1 t) : (cfg1.win 4).flush t = false :=
  Bool.eq_false_iff.mpr fun hf => h ((isLast1_iff t).mpr ((flush1_4 t).mp hf))
theorem inLive1_0 (t : Fin cfg1.N) : idle1 0 (grid1.coords t) = false := rfl
theorem inLive1_1 (t : Fin cfg1.N) : idle1 1 (grid1.coords t) = false := rfl
theorem inLive1_2 (t : Fin cfg1.N) : idle1 2 (grid1.coords t) = false := rfl
theorem inLive1_3 (t : Fin cfg1.N) : idle1 3 (grid1.coords t) = false := rfl

def others1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ others1 (F := F) c) :=
  Pipeline.scopedRest_split_of_list spec1 c [cc1_scratch0] (by decide) (by decide)

section Data

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev adjBlk1 (c : Dev nD) (t : Fin cfg1.N) : Vec F S2560x2560 .bf16 := iblk1 V c 0 t
abbrev featBlk1 (c : Dev nD) (t : Fin cfg1.N) : Vec F S2560x128 .bf16 := iblk1 V c 1 t
abbrev biasBlk1 (c : Dev nD) (t : Fin cfg1.N) : Vec F S1x128 .f32 := iblk1 V c 2 t
abbrev wtBlk1 (c : Dev nD) (t : Fin cfg1.N) : Vec F S128x128 .f32 := iblk1 V c 3 t

def acc1 (c : Dev nD) : (k : ℕ) → k < cfg1.N → Vec F S2560x128 .f32
  | 0, hk => k1_pay2 k1_pay1 (adjBlk1 V c ⟨0, hk⟩) (featBlk1 V c ⟨0, hk⟩)
  | k + 1, hk =>
    if (k + 1) % 4 = 0 then k1_pay2 k1_pay1 (adjBlk1 V c ⟨k + 1, hk⟩) (featBlk1 V c ⟨k + 1, hk⟩)
    else k1_pay2 (acc1 c k (Nat.lt_of_succ_lt hk)) (adjBlk1 V c ⟨k + 1, hk⟩) (featBlk1 V c ⟨k + 1, hk⟩)

theorem acc1_first (c : Dev nD) (t : Fin cfg1.N) (h : t.val % 4 = 0) :
    acc1 V c t.val t.isLt = k1_pay2 k1_pay1 (iblk1 V c 0 t) (iblk1 V c 1 t) := by
  obtain ⟨k, hk⟩ := t
  cases k with
  | zero => rfl
  | succ k => show (if (k + 1) % 4 = 0 then _ else _) = _; rw [if_pos h]

theorem acc1_step (c : Dev nD) (t : Fin cfg1.N) (h : t.val % 4 ≠ 0) (hp : t.val - 1 < cfg1.N) :
    acc1 V c t.val t.isLt = k1_pay2 (acc1 V c (t.val - 1) hp) (iblk1 V c 0 t) (iblk1 V c 1 t) := by
  obtain ⟨k, hk⟩ := t
  cases k with
  | zero => exact absurd rfl h
  | succ k => show (if (k + 1) % 4 = 0 then _ else _) = _; rw [if_neg h]; rfl

def sumPart1 (c : Dev nD) (k : Fin (cfg1.N + 1)) : sProp 𝕄 :=
  if h : k.val % 4 = 0 then iprop(∃ a, owns (c : Thread nD τ) accM1 fullShare a)
  else owns (c : Thread nD τ) accM1 fullShare (acc1 V c (k.val - 1) (by have := k.isLt; omega))

def Φ1 (c : Dev nD) (k : Fin (cfg1.N + 1)) : sProp 𝕄 :=
  iprop((sumPart1 V c k ∗ others1 (F := F) c) ∗ ∃ r, prngReg c r)

/-- The region's proof data: the arrays as found; each input's block, and the output's as the epilogue of the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (biasBlk1 V c t) (wtBlk1 V c t)
  Φ k := Φ1 V c k
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

theorem before1_0 (c : Dev nD) (t : Fin cfg1.N) (d) : (dat1 V c).before 0 t d = iblk1 V c 0 t := by
  rw [(dat1 V c).before_fetched 0 t (fetch1_0 t)]
  unfold Dat.fetched Dat.blockOf iblk1; rw [A_eq1]; rfl
theorem before1_1 (c : Dev nD) (t : Fin cfg1.N) (d) : (dat1 V c).before 1 t d = iblk1 V c 1 t := by
  rw [(dat1 V c).before_fetched 1 t (fetch1_1 t)]
  unfold Dat.fetched Dat.blockOf iblk1; rw [A_eq1]; rfl
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]) t d).trans
    (by unfold Dat.fetched Dat.blockOf iblk1; rw [A_eq1]; rfl)

/-- The invariant at a boundary whose number is ≡ 0 (mod 4), and before and after a point at any other. -/
theorem Φ1_zero (c : Dev nD) (k : Fin (cfg1.N + 1)) (h : k.val % 4 = 0) :
    (dat1 V c).Φ k = iprop(((∃ a, owns (c : Thread nD τ) accM1 fullShare a) ∗ others1 (F := F) c) ∗ ∃ r, prngReg c r) := by
  show Φ1 V c _ = _; unfold Φ1 sumPart1; rw [dif_pos h]
theorem Φ1_pre (c : Dev nD) (t : Fin cfg1.N) (h : t.val % 4 ≠ 0) (hp : t.val - 1 < cfg1.N) :
    (dat1 V c).Φ t.castSucc = iprop((owns (c : Thread nD τ) accM1 fullShare (acc1 V c (t.val - 1) hp) ∗ others1 (F := F) c) ∗ ∃ r, prngReg c r) := by
  show Φ1 V c _ = _; unfold Φ1 sumPart1; rw [dif_neg (by exact h)]; rfl
theorem Φ1_succ (c : Dev nD) (t : Fin cfg1.N) (h : (t.val + 1) % 4 ≠ 0) :
    (dat1 V c).Φ t.succ = iprop((owns (c : Thread nD τ) accM1 fullShare (acc1 V c t.val t.isLt) ∗ others1 (F := F) c) ∗ ∃ r, prngReg c r) := by
  show Φ1 V c _ = _; unfold Φ1 sumPart1; rw [dif_neg (by exact h)]; rfl

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  have hN := N_1
  have ht := t.isLt
  have w0 : (st1_0 t).IsWhole := hstage1_0 ((cfg1.slots t 0).cast nbuf1_0)
  have w1 : (st1_1 t).IsWhole := hstage1_1 ((cfg1.slots t 1).cast nbuf1_1)
  have w2 : (st1_2 t).IsWhole := hstage1_2 ((cfg1.slots t 2).cast nbuf1_2)
  have w3 : (st1_3 t).IsWhole := hstage1_3 ((cfg1.slots t 3).cast nbuf1_3)
  have w4 : (st1_4 t).IsWhole := hstage1_4 ((cfg1.slots t 4).cast nbuf1_4)
  simp only [inLive1_0, inLive1_1, inLive1_2, inLive1_3, before1_0, before1_1, before1_2, before1_3,
    after1_0, after1_1, after1_2, after1_3, after1_4]
  by_cases hL : IsLast1 t
  · have h3 : t.val % 4 = 3 := (isLast1_iff t).mp hL
    have hF : ¬ IsFirst1 t := fun h => by have := (isFirst1_iff t).mp h; omega
    have h0 : t.val % 4 ≠ 0 := by omega
    simp only [outIdle1_of_last t hL, outFlush1_of_last t hL]
    rw [Φ1_pre V c t h0 (by omega), Φ1_zero V c t.succ (by show (t.val + 1) % 4 = 0; omega), acc1_step V c t h0 (by omega)]
    iintro ⟨⟨⟨Ha, Hr⟩, Hp⟩, HO, ⟨%d0, H0⟩, ⟨%d1, H1⟩, ⟨%d2, H2⟩, ⟨%d3, H3⟩, ⟨%d4, H4⟩⟩
    iapply (run_last1 c t w0 w1 w2 w3 w4 _ _ _ _ _ hF hL)
    iframe H0 H1 H2 H3 Ha
    isplitl [H4]; · iexists _; iexact H4
    iintro ⟨H0, H1, H2, H3, H4, Ha⟩
    iframe Hr Hp HO H0 H1 H2 H3 H4
    iexists _; iexact Ha
  · have h3 : t.val % 4 ≠ 3 := fun h => hL ((isLast1_iff t).mpr h)
    simp only [outIdle1_of_not_last t hL, outFlush1_of_not_last t hL]
    rw [Φ1_succ V c t (by omega)]
    by_cases hF : IsFirst1 t
    on_goal 1 =>
      have h0 : t.val % 4 = 0 := (isFirst1_iff t).mp hF
      rw [Φ1_zero V c t.castSucc h0, acc1_first V c t h0]
      iintro ⟨⟨⟨⟨%a, Ha⟩, Hr⟩, Hp⟩, HO, ⟨%d0, H0⟩, ⟨%d1, H1⟩, ⟨%d2, H2⟩, ⟨%d3, H3⟩, H4⟩
    on_goal 2 =>
      have h0 : t.val % 4 ≠ 0 := fun h => hF ((isFirst1_iff t).mpr h)
      rw [Φ1_pre V c t h0 (by omega), acc1_step V c t h0 (by omega)]
      iintro ⟨⟨⟨Ha, Hr⟩, Hp⟩, HO, ⟨%d0, H0⟩, ⟨%d1, H1⟩, ⟨%d2, H2⟩, ⟨%d3, H3⟩, H4⟩
    all_goals
      iapply (run_acc1 c t w0 w1 w2 w3 w4 _ _ _ hL
        iprop(owns (c : Thread nD τ) (st1_2 t) fullShare (iblk1 V c 2 t) ∗ owns (c : Thread nD τ) (st1_3 t) fullShare (iblk1 V c 3 t)
          ∗ ∃ d, owns (c : Thread nD τ) (st1_4 t) fullShare ((dat1 V c).before 4 t d)))
      first | rw [if_pos hF] | rw [if_neg hF]
      iframe H0 H1 H2 H3 H4 Ha
      iintro ⟨H0, H1, ⟨H2, H3, H4⟩, Ha⟩
      iframe

theorem sumPart1_zero (c : Dev nD) (k : Fin (cfg1.N + 1)) (h : k.val % 4 = 0) :
    sumPart1 V c k = iprop(∃ a, owns (c : Thread nD τ) accM1 fullShare a) := by
  unfold sumPart1; exact dif_pos h

/-- The invariant at the first boundary holds whatever the accumulator contains, and at the last boundary forgets what it
    contains. -/
theorem hin1 (c : Dev nD) : (Pipeline.ΦA spec1 c : sProp 𝕄) ⊢ (dat1 V c).Φ 0 := by
  rw [show (dat1 V c).Φ 0 = Φ1 V c 0 from rfl]
  unfold Φ1 Pipeline.ΦA; rw [sumPart1_zero V c 0 (by decide), scopedRest1_split]
  iintro ⟨⟨⟨%f, Hf⟩, Hr⟩, Hp⟩
  iframe Hr Hp
  iexists f; rw [owns_whole_eq]; iexists f; isplitr; (· ipureintro; rfl); iexact Hf

theorem hout1 (c : Dev nD) : (dat1 V c).Φ (Fin.last cfg1.N) ⊢ (Pipeline.ΦA spec1 c : sProp 𝕄) := by
  rw [show (dat1 V c).Φ (Fin.last cfg1.N) = Φ1 V c (Fin.last cfg1.N) from rfl]
  unfold Φ1 Pipeline.ΦA; rw [sumPart1_zero V c _ (by decide), scopedRest1_split]; simp only [owns_whole_eq]
  iintro ⟨⟨⟨%a, %f, %hf, Hf⟩, Hr⟩, Hp⟩
  iframe Hr Hp
  iexists f; iexact Hf

end Data

end Cert.Kernel.Hand

end
-- ==== Proof.KBody2.lean ====
import proofs.«421950_j9620726743150_3_alg».proof.Proof.Gen.Kernel
import proofs.«421950_j9620726743150_3_alg».proof.Proof.Gen.Kernel.Skeleton
import proofs.«421950_j9620726743150_3_alg».proof.Proof.Gen.Kernel.Launch
import proofs.«421950_j9620726743150_3_alg».proof.Proof.Gen.Kernel.Points
import proofs.«421950_j9620726743150_3_alg».proof.Proof.LibRegion
import Idealize.ShloMosaic.Lib.Writes
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev accM2 : Memref sig .tc .vmem S2560x128 .f32 := Memref.whole cc2_scratch0

abbrev IsFirst2 (t : Fin cfg2.N) : Prop :=
  Scalar.cmpi .ne (Scalar.extui (Scalar.cmpi .eq (BitVec.ofNat 32 ((grid2.coords t) 1).val) 0#32)) 0#32 = 1#1
abbrev IsLast2 (t : Fin cfg2.N) : Prop := k2_cond2 (grid2.coords t) = 1#1

section Runs

variable (c : Dev nD) (t : Fin cfg2.N)
  {M0 : Memref sig .tc .vmem S2560x2560 .bf16} {h0 : M0.IsWhole} {M1 : Memref sig .tc .vmem S2560x128 .bf16} {h1 : M1.IsWhole}
  {M2 : Memref sig .tc .vmem S1x128 .f32} {h2 : M2.IsWhole} {M3 : Memref sig .tc .vmem S2560x128 .f32} {h3 : M3.IsWhole}
  {M4 : Memref sig .tc .vmem S128x16 .f32} {h4 : M4.IsWhole} {M5 : Memref sig .tc .vmem S1x16 .f32} {h5 : M5.IsWhole}
  {M6 : Memref sig .tc .vmem S128x2 .f32} {h6 : M6.IsWhole} {M7 : Memref sig .tc .vmem S1x2 .f32} {h7 : M7.IsWhole}
  {M8 : Memref sig .tc .vmem S2560x128 .f32} {h8 : M8.IsWhole}
  (xA : Vec F S2560x2560 .bf16) (xX : Vec F S2560x128 .bf16) (xb : Vec F S1x128 .f32) (xo : Vec F S2560x128 .f32)
  (xWl : Vec F S128x16 .f32) (xbl : Vec F S1x16 .f32) (xWd : Vec F S128x2 .f32) (xbd : Vec F S1x2 .f32) (a : Vec F S2560x128 .f32)

local notation "AGG2" => cc2__aggregate2_heads_kernel (grid2.coords t) M0 h0 M1 h1 M2 h2 M3 h3 M4 h4 M5 h5 M6 h6 M7 h7 M8 h8 (Memref.whole cc2_scratch0) (Memref.isWhole_whole _)

/-- A step that is not a row block's last adds the block product to the accumulator, zeroed first at a first step. -/
theorem run_acc2 (hL : ¬ IsLast2 t) (O : sProp 𝕄) (Q : PUnit → sProp 𝕄) :
    iprop(owns (c : Thread nD τ) M0 fullShare xA ∗ owns (c : Thread nD τ) M1 fullShare xX ∗ O ∗ owns (c : Thread nD τ) accM2 fullShare a
      ∗ (iprop(owns (c : Thread nD τ) M0 fullShare xA ∗ owns (c : Thread nD τ) M1 fullShare xX ∗ O
          ∗ owns (c : Thread nD τ) accM2 fullShare (k2_pay2 (if IsFirst2 t then k2_pay1 else a) xA xX)) -∗ Q ⟨⟩))
      ⊢ wp frame (wpE (defs₀ (F := F)) Variants.none c none) Set.univ AGG2 Q := by
  by_cases hF : IsFirst2 t
  all_goals
    first | rw [if_pos hF] | rw [if_neg hF]
    simp only [cc2__aggregate2_heads_kernel_eq_skeleton]; unfold cc2__aggregate2_heads_kernel_skel
    unfold owns
    iintro ⟨⟨%f0, %hf0, H0⟩, ⟨%f1, %hf1, H1⟩, HO, ⟨%fa, %hfa, Ha⟩, Hk⟩
    subst hf0 hf1 hfa
    sl_exec! (disch := assumption)
    sl_step
    iapply Hk
    isplitl [H0]; · iexists f0; isplitr; (· ipureintro; rfl); iexact H0
    isplitl [H1]; · iexists f1; isplitr; (· ipureintro; rfl); iexact H1
    isplitl [HO]; · iexact HO
    iexists _; isplitr; swap; (· iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2]

/-- A last step adds the block product to the accumulator and stores the heads of the finished sum. -/
theorem run_last2 (hF : ¬ IsFirst2 t) (hL : IsLast2 t) (Q : PUnit → sProp 𝕄) :
    iprop(owns (c : Thread nD τ) M0 fullShare xA ∗ owns (c : Thread nD τ) M1 fullShare xX ∗ owns (c : Thread nD τ) M2 fullShare xb
      ∗ owns (c : Thread nD τ) M3 fullShare xo ∗ owns (c : Thread nD τ) M4 fullShare xWl ∗ owns (c : Thread nD τ) M5 fullShare xbl
      ∗ owns (c : Thread nD τ) M6 fullShare xWd ∗ owns (c : Thread nD τ) M7 fullShare xbd
      ∗ (∃ d, owns (c : Thread nD τ) M8 fullShare d) ∗ owns (c : Thread nD τ) accM2 fullShare a
      ∗ (iprop(owns (c : Thread nD τ) M0 fullShare xA ∗ owns (c : Thread nD τ) M1 fullShare xX ∗ owns (c : Thread nD τ) M2 fullShare xb
          ∗ owns (c : Thread nD τ) M3 fullShare xo ∗ owns (c : Thread nD τ) M4 fullShare xWl ∗ owns (c : Thread nD τ) M5 fullShare xbl
          ∗ owns (c : Thread nD τ) M6 fullShare xWd ∗ owns (c : Thread nD τ) M7 fullShare xbd
          ∗ owns (c : Thread nD τ) M8 fullShare (k2_pay3 (k2_pay2 a xA xX) xb xo xWl xbl xWd xbd)
          ∗ owns (c : Thread nD τ) accM2 fullShare (k2_pay2 a xA xX)) -∗ Q ⟨⟩))
      ⊢ wp frame (wpE (defs₀ (F := F)) Variants.none c none) Set.univ AGG2 Q := by
  simp only [cc2__aggregate2_heads_kernel_eq_skeleton]; unfold cc2__aggregate2_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, %hf8, H8⟩, ⟨%fa, %hfa, Ha⟩, Hk⟩
  subst hf0 hf1 hf2 hf3 hf4 hf5 hf6 hf7 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]
  all_goals
    iexists _; isplitr; swap; (· first | iexact H8 | iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2,
      View.ld_unit_zero (S := S1x128) View.zero2, View.ld_unit_zero (S := S128x16) View.zero2,
      View.ld_unit_zero (S := S1x16) View.zero2, View.ld_unit_zero (S := S128x2) View.zero2,
      View.ld_unit_zero (S := S1x2) View.zero2]

end Runs

end Cert.Kernel.Hand

end
-- ==== Proof.KDat2.lean ====
import proofs.«421950_j9620726743150_3_alg».proof.Proof.KBody2
import Idealize.ShloMosaic.Lib.Pipeline.FrameBody
import Idealize.ShloMosaic.Lib.Pipeline.Kit

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem isFirst2_iff : ∀ t : Fin cfg2.N, IsFirst2 t ↔ t.val % 4 = 0 :=
  (by decide +kernel : ∀ t : Fin grid2.N, (Scalar.cmpi .ne (Scalar.extui (Scalar.cmpi .eq (BitVec.ofNat 32 ((grid2.coords t) 1).val) 0#32)) 0#32 = 1#1) ↔ t.val % 4 = 0)
theorem isLast2_iff : ∀ t : Fin cfg2.N, IsLast2 t ↔ t.val % 4 = 3 :=
  (by decide +kernel : ∀ t : Fin grid2.N, k2_cond2 (grid2.coords t) = 1#1 ↔ t.val % 4 = 3)

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (k : ℕ) → k < cfg2.N → Vec F S2560x128 .f32
  | 0, hk => k2_pay2 (k2_pay1 (F := F)) (iblk2 V c 0 ⟨0, hk⟩) (iblk2 V c 1 ⟨0, hk⟩)
  | k + 1, hk =>
    if (k + 1) % 4 = 0 then k2_pay2 (k2_pay1 (F := F)) (iblk2 V c 0 ⟨k + 1, hk⟩) (iblk2 V c 1 ⟨k + 1, hk⟩)
    else k2_pay2 (acc2 c k (Nat.lt_of_succ_lt hk)) (iblk2 V c 0 ⟨k + 1, hk⟩) (iblk2 V c 1 ⟨k + 1, hk⟩)

theorem acc2_first (c : Dev nD) (t : Fin cfg2.N) (h : t.val % 4 = 0) :
    acc2 V c t.val t.isLt = k2_pay2 (k2_pay1 (F := F)) (iblk2 V c 0 t) (iblk2 V c 1 t) := by
  obtain ⟨k, hk⟩ := t
  cases k with
  | zero => rfl
  | succ k => show (if (k + 1) % 4 = 0 then _ else _) = _; rw [if_pos h]

theorem acc2_step (c : Dev nD) (t : Fin cfg2.N) (h : t.val % 4 ≠ 0) (hp : t.val - 1 < cfg2.N) :
    acc2 V c t.val t.isLt = k2_pay2 (acc2 V c (t.val - 1) hp) (iblk2 V c 0 t) (iblk2 V c 1 t) := by
  obtain ⟨k, hk⟩ := t
  cases k with
  | zero => exact absurd rfl h
  | succ k => show (if (k + 1) % 4 = 0 then _ else _) = _; rw [if_neg h]; rfl

abbrev restM2 (c : Dev nD) : sProp 𝕄 :=
  Pipeline.scopedRestBut (Ix := Unit) (Name := ℕ) (U := UR sig nD τ) (Lvl := ℕ) (Val := Elt F) spec2 c [cc2_scratch0]

/-- The accumulator before point `k`: at anything where a row block starts, else at the sum the point before left. -/
def accPart2 (c : Dev nD) (k : Fin (cfg2.N + 1)) : sProp 𝕄 :=
  if h : k.val % 4 = 0 then iprop(∃ a, owns (c : Thread nD τ) accM2 fullShare a)
  else owns (c : Thread nD τ) accM2 fullShare (acc2 V c (k.val - 1) (by have := k.isLt; omega))

def Φ2 (c : Dev nD) (k : Fin (cfg2.N + 1)) : sProp 𝕄 := iprop(accPart2 V c k ∗ restM2 c ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay3 (acc2 V c t.val t.isLt) (iblk2 V c 2 t) (iblk2 V c 3 t) (iblk2 V c 4 t) (iblk2 V c 5 t) (iblk2 V c 6 t) (iblk2 V c 7 t)
  Φ k := Φ2 V c k
  q _ := fullShare
  owed _ := 0

theorem A_eq2 (c : Dev nD) (w : Fin cfg2.W) : (dat2 V c).A w = V c (Pipeline.arrRef spec2 w) := by
  dsimp only [dat2]

theorem after2_8 (c : Dev nD) (t : Fin cfg2.N) :
    (dat2 V c).after 8 t = k2_pay3 (acc2 V c t.val t.isLt) (iblk2 V c 2 t) (iblk2 V c 3 t) (iblk2 V c 4 t) (iblk2 V c 5 t) (iblk2 V c 6 t) (iblk2 V c 7 t) := by dsimp only [dat2]

/-- The body leaves every input block as it found it. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

/-- The output block is written exactly at a row block's last step. -/
theorem leaves2_8 (c : Dev nD) (t : Fin cfg2.N) :
    (dat2 V c).leavesExact 8 t = if IsLast2 t then owns (c : Thread nD τ) (st2_8 t) fullShare ((dat2 V c).after 8 t)
      else iprop(∃ d, owns (c : Thread nD τ) (st2_8 t) fullShare ((dat2 V c).before 8 t d)) := by
  by_cases h : IsLast2 t
  · rw [if_pos h]; unfold Dat.leavesExact
    rw [show cfg2.idle 8 (grid2.coords t) = false from by
      show (!(k2_cond2 (grid2.coords t) == 1#1)) = false; rw [beq_iff_eq.mpr h]; rfl]
  · rw [if_neg h]
    exact Dat.leavesExact_idle (dat2 V c) 8 t
      (by show (!(k2_cond2 (grid2.coords t) == 1#1)) = true; rw [beq_eq_false_iff_ne.mpr h]; rfl)
      (Bool.eq_false_iff.mpr fun hf => h ((isLast2_iff t).mpr ((flush2_8 t).mp hf)))

/-- The invariant before and after point `t`, by whether a row block starts there. -/
theorem Φ2_pre (c : Dev nD) (t : Fin cfg2.N) :
    (dat2 V c).Φ t.castSucc = iprop((if h : t.val % 4 = 0 then iprop(∃ a, owns (c : Thread nD τ) accM2 fullShare a)
      else owns (c : Thread nD τ) accM2 fullShare (acc2 V c (t.val - 1) (by have := t.isLt; omega))) ∗ restM2 c ∗ ∃ r, prngReg c r) := rfl
theorem Φ2_post (c : Dev nD) (t : Fin cfg2.N) :
    (dat2 V c).Φ t.succ = iprop((if h : (t.val + 1) % 4 = 0 then iprop(∃ a, owns (c : Thread nD τ) accM2 fullShare a)
      else owns (c : Thread nD τ) accM2 fullShare (acc2 V c t.val t.isLt)) ∗ restM2 c ∗ ∃ r, prngReg c r) := rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ owns (c : Thread nD τ) (st2_7 t) fullShare (iblk2 V c 7 t)
    ∗ (dat2 V c).leavesExact 8 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2, before2_3, before2_4, before2_5, before2_6, before2_7]
  rw [leaves2_8, Φ2_pre, Φ2_post]
  have hN : cfg2.N = 16 := N_2
  have hlt := t.isLt
  by_cases hL : IsLast2 t
  · have h3 : t.val % 4 = 3 := (isLast2_iff t).mp hL
    have hF : ¬ IsFirst2 t := fun h => by have := (isFirst2_iff t).mp h; omega
    have h0 : t.val % 4 ≠ 0 := by omega
    rw [if_pos hL, after2_8, acc2_step V c t h0 (by omega), dif_neg h0, dif_pos (by omega)]
    iintro ⟨⟨Ha, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last2 c t _ _ _ _ _ _ _ _ _ hF hL)
    iframe H0 H1 H2 H3 H4 H5 H6 H7 Ha
    isplitl [H8]; · iexists _; iexact H8
    iintro ⟨H0, H1, H2, H3, H4, H5, H6, H7, H8, Ha⟩
    iframe Hr Hp Ho H0 H1 H2 H3 H4 H5 H6 H7 H8
    iexists _; iexact Ha
  · have h3 : (t.val + 1) % 4 ≠ 0 := fun h => hL ((isLast2_iff t).mpr (by omega))
    rw [if_neg hL, dif_neg h3]
    by_cases hF : IsFirst2 t
    on_goal 1 =>
      have h0 : t.val % 4 = 0 := (isFirst2_iff t).mp hF
      rw [dif_pos h0, acc2_first V c t h0]
      iintro ⟨⟨⟨%a, Ha⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    on_goal 2 =>
      have h0 : t.val % 4 ≠ 0 := fun h => hF ((isFirst2_iff t).mpr h)
      rw [dif_neg h0, acc2_step V c t h0 (by omega)]
      iintro ⟨⟨Ha, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    all_goals
      iapply (run_acc2 c t _ _ _ hL
        iprop(owns (c : Thread nD τ) (st2_2 t) fullShare (iblk2 V c 2 t) ∗ owns (c : Thread nD τ) (st2_3 t) fullShare (iblk2 V c 3 t)
          ∗ owns (c : Thread nD τ) (st2_4 t) fullShare (iblk2 V c 4 t) ∗ owns (c : Thread nD τ) (st2_5 t) fullShare (iblk2 V c 5 t)
          ∗ owns (c : Thread nD τ) (st2_6 t) fullShare (iblk2 V c 6 t) ∗ owns (c : Thread nD τ) (st2_7 t) fullShare (iblk2 V c 7 t)
          ∗ ∃ d, owns (c : Thread nD τ) (st2_8 t) fullShare ((dat2 V c).before 8 t d)))
      first | rw [if_pos hF] | rw [if_neg hF]
      iframe H0 H1 H2 H3 H4 H5 H6 H7 H8 Ha
      iintro ⟨H0, H1, ⟨H2, H3, H4, H5, H6, H7, H8⟩, Ha⟩
      iframe

theorem body_obligation2 (c : Dev nD) : BodyObligation (dat2 (F := F) V c) (defs₀ (F := F)) Variants.none () Set.univ := fun t => by
  rw [bigSep_W2, bigSep_W2]
  exact sound_body2 V c t

/-- The accumulator's cell split off from the rest of the region's memory. -/
theorem ΦA_split2 (c : Dev nD) :
    (Pipeline.ΦA spec2 c : sProp 𝕄)
      = iprop(((∃ f : Buf (Elt F) ((c : Thread nD τ).loc cc2_scratch0), ((c : Thread nD τ).loc cc2_scratch0) ↦{fullShare} f) ∗ restM2 c)
          ∗ ∃ r, prngReg c r) := by
  unfold Pipeline.ΦA
  rw [Pipeline.scopedRest_split_of_list spec2 c [cc2_scratch0] (by decide) (by decide)]
  rfl

theorem hin2 (c : Dev nD) : (Pipeline.ΦA spec2 c : sProp 𝕄) ⊢ (dat2 V c).Φ 0 := by
  rw [ΦA_split2, show (dat2 V c).Φ 0 = iprop((∃ a, owns (c : Thread nD τ) accM2 fullShare a) ∗ restM2 c ∗ ∃ r, prngReg c r) from rfl]
  iintro ⟨⟨⟨%f, Hf⟩, Hr⟩, Hp⟩
  iframe Hr Hp
  iexists _; rw [owns_whole_eq]; iexists f; isplitr; (· ipureintro; rfl); iexact Hf

theorem hout2 (c : Dev nD) : (dat2 V c).Φ (Fin.last cfg2.N) ⊢ (Pipeline.ΦA spec2 c : sProp 𝕄) := by
  rw [ΦA_split2, show (dat2 V c).Φ (Fin.last cfg2.N) = iprop((∃ a, owns (c : Thread nD τ) accM2 fullShare a) ∗ restM2 c ∗ ∃ r, prngReg c r) from rfl]
  simp only [owns_whole_eq]
  iintro ⟨⟨%a, %f, %hf, Hf⟩, Hr, Hp⟩
  iframe Hr Hp
  iexists f; iexact Hf

end Region2

end Cert.Kernel.Hand

end
-- ==== Proof.KSegs.lean ====
import proofs.«421950_j9620726743150_3_alg».proof.Proof.Gen.Kernel.Launch
import proofs.«421950_j9620726743150_3_alg».proof.Proof.Gen.Kernel.Regions
import proofs.«421950_j9620726743150_3_alg».proof.Proof.KDat0
import proofs.«421950_j9620726743150_3_alg».proof.Proof.KDat1
import proofs.«421950_j9620726743150_3_alg».proof.Proof.KDat2
import Idealize.ShloMosaic.Lib.Pipeline.RegionsLoop
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer at each boundary of @main, folded from the launch memory: through each host stretch, and
    through each region, which changes only its output arrays. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b

abbrev W7 : Dev nD → Valuation τ sig (Elt F) := fun c => StableHlo.after hostOps3 (W6 m c)

def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
/-- A region takes the contents `Wi` to `Wo` when `Wo` has the region's arrays at their final contents and agrees with
    `Wi` everywhere else. -/
def reg (p : Fin 3) (lf : Pipeline.LaunchFacts (nD := nD) (τ := τ) cfgs p) (Wi Wo : Dev nD → Valuation τ sig (Elt F))
    (hb : ∀ c, BodyObligation (pdats m p c) (defs₀ (F := F)) Variants.none () Set.univ)
    (hq : ∀ c w, (pdats m p c).q w = fullShare) (hz : ∀ c t, (pdats m p c).owed t = 0) (hrec : ∀ c x, x ∈ (pdats m p c).bound () 0)
    (hA : ∀ c w, (pdats m p c).A w = Wi c (Proc.devRef .tc (Pipeline.arrRef (cfgs p).spec w)))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄))
    (hF : ∀ c w, Wo c (Proc.devRef .tc (Pipeline.arrRef (cfgs p).spec w)) = (pdats m p c).arrAt w (cfgs p).N)
    (hr : ∀ c (b : Ref sig .tc), (∀ w, Pipeline.arrRef (cfgs p).spec w ≠ b) → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c (Proc.devRef .tc b))
  hentry c := by
    rw [Pipeline.ownSems0_none]
    have hsplit := Pipeline.arrays_of_unscopedBufs (p := p) (pcfgs (F := F)) adm (pdats m) lf.win lf.arr_whole c
      ((pdats m p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [hz c 0]
    icases HO with ⟨%W, HO⟩; iexists W; iframe HO; ipureintro; exact fun x _ => hrec c x
  hin c := by
    refine BIBase.Entails.trans ?_ (hi c)
    unfold Pipeline.ΦA
    iintro ⟨Hp, -, Hr⟩
    iframe
  hout c := by
    rw [Pipeline.ownSems0_none]
    refine BIBase.Entails.trans (ho c) ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c (Proc.devRef .tc b)) (fun b => Wo c (Proc.devRef .tc b)) ((pdats m p c).arrAt · (cfgs p).N) (fun w => (hF c w).symm)
      (fun b hb => hr c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg m 0 launch0 (W3 m) (W4 m) (body_obligation0 (V3 m)) (fun _ _ => rfl) (fun _ _ => rfl) (fun _ _ => Or.inl trivial) (A_eq0 (V3 m)) (hin0 (V3 m)) (hout0 (V3 m)) (W4_arr m) (W4_of_ne m)),
    .region (reg m 1 launch1 (W4 m) (W5 m) (body_obligation1 (V4 m)) (fun _ _ => rfl) (fun _ _ => rfl) (fun _ _ => Or.inl trivial) (A_eq1 (V4 m)) (hin1 (V4 m)) (hout1 (V4 m)) (W5_arr m) (W5_of_ne m)),
    .region (reg m 2 launch2 (W5 m) (W6 m) (body_obligation2 (V5 m)) (fun _ _ => rfl) (fun _ _ => rfl) (fun _ _ => Or.inl trivial) (A_eq2 (V5 m)) (hin2 (V5 m)) (hout2 (V5 m)) (W6_arr m) (W6_of_ne m)),
    .host (hseg hostOps3 hostOps3_sub hostOps3_fresh (W6 m)) ]

set_option backward.isDefEq.respectTransparency.types false in
/-- Every weakly fair execution of @main terminates with every buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => show (iprop(StableHlo.held (c : Thread nD τ) (Pipeline.ucRefs τ sig) (W7 m c) ∗ R c) : sProp 𝕄)
        ⊢ iprop(Tₙ m c ∗ ∃ W, owes (c : Thread nD τ) (0 : CellTallies nD τ sig Unit) W) from by
      iintro ⟨Hh, Hp, HO⟩
      unfold Tₙ; iframe⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      iframe)
    (hQ := fun s h => h)

/-- A buffer no opening host stretch writes still holds its launch contents at the first region's entry. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- Putting arrays back changes no buffer whose new contents are its old ones. -/
theorem withArrays_keep {gr Wn : Nat} (win : Fin Wn → Pipeline.WinSpec sig gr) (hinj : Function.Injective (Pipeline.arrRef win))
    (c : Dev nD) (V : Valuation τ sig (Elt F)) (A : (w : Fin Wn) → Buf (Elt F) ((win w).arr.view.loc (c.tc : Thread nD τ)))
    (r : Ref sig .tc) (h : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw; exact (Pipeline.withArrays_arr win hinj c V A w).trans (h w rfl)
  · exact Pipeline.withArrays_of_ne win c V A r fun w e => hw ⟨w, e⟩

/-- No host stretch writes `r`, and in each region it is no output's array. -/
abbrev Kept (r : Ref sig .tc) : Prop :=
  r ∉ hostOps0_W ∧ r ∉ hostOps0_1_W ∧ r ∉ hostOps0_2_W ∧ r ∉ hostOps3_W
  ∧ (∀ w, Pipeline.arrRef spec0 w = r → (cfg0.win w).isOut = false)
  ∧ (∀ w, Pipeline.arrRef spec1 w = r → (cfg1.win w).isOut = false)
  ∧ (∀ w, Pipeline.arrRef spec2 w = r → (cfg2.win w).isOut = false)

/-- Such a buffer ends as launched: an input's array is left as found. -/
theorem W7_kept (c : Dev nD) (r : Ref sig .tc) (h : Kept r) : W7 m c (Proc.devRef .tc r) = m ((c : Thread nD τ).loc r) := by
  obtain ⟨h0, h1, h2, h3, k0, k1, k2⟩ := h
  exact (StableHlo.after_of_writes_sub hostOps3 _ hostOps3_writes h3).trans <|
    (withArrays_keep spec2 launch2.win.arr_inj c _ _ r fun w e => ((dat2 (V5 m) c).arrAt_in w (k2 w e) _).trans (A_eq2 (V5 m) c w)).trans <|
    (withArrays_keep spec1 launch1.win.arr_inj c _ _ r fun w e => ((dat1 (V4 m) c).arrAt_in w (k1 w e) _).trans (A_eq1 (V4 m) c w)).trans <|
    (withArrays_keep spec0 launch0.win.arr_inj c _ _ r fun w e => ((dat0 (V3 m) c).arrAt_in w (k0 w e) _).trans (A_eq0 (V3 m) c w)).trans <|
    W3_of m c r h0 h1 h2

/-- The run ends with the three results at the last boundary's contents and the fourteen arguments as launched. -/
theorem run_all : θ_run defs (onTc (τ := τ) (main (F := F))) ⟨m, fun _ => 0, ρ⟩ (fun r => ∀ c : Dev nD,
      r.2.mem ((c.tc : Thread nD τ).loc main_v61) = W7 m c (Proc.devRef .tc main_v61)
      ∧ r.2.mem ((c.tc : Thread nD τ).loc main_v63) = W7 m c (Proc.devRef .tc main_v63)
      ∧ r.2.mem ((c.tc : Thread nD τ).loc main_v65) = W7 m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    have a (b : Ref sig .tc) (hs : ¬ (Proc.devRef .tc b : DevRef τ sig).isScoped) (hk : Kept b) :
        r.2.mem ((c.tc : Thread nD τ).loc b) = m ((c.tc : Thread nD τ).loc b) := (h c _ (mem_uc b hs)).trans (W7_kept m c b hk)
    ⟨h c _ (mem_uc main_v61 (by decide)), h c _ (mem_uc main_v63 (by decide)), h c _ (mem_uc main_v65 (by decide)),
     a main_arg0 (by decide) (by decide),
     a main_arg1 (by decide) (by decide),
     a main_arg2 (by decide) (by decide),
     a main_arg3 (by decide) (by decide),
     a main_arg4 (by decide) (by decide),
     a main_arg5 (by decide) (by decide),
     a main_arg6 (by decide) (by decide),
     a main_arg7 (by decide) (by decide),
     a main_arg8 (by decide) (by decide),
     a main_arg9 (by decide) (by decide),
     a main_arg10 (by decide) (by decide),
     a main_arg11 (by decide) (by decide),
     a main_arg12 (by decide) (by decide),
     a main_arg13 (by decide) (by decide)⟩)
    (run_main m ρ)

end Cert.Kernel.Hand

end
-- ==== Proof.KIBody0.lean ====
import proofs.«421950_j9620726743150_3_alg».proof.Proof.Gen.KernelIdeal
import proofs.«421950_j9620726743150_3_alg».proof.Proof.Gen.KernelIdeal.Skeleton
import proofs.«421950_j9620726743150_3_alg».proof.Proof.Gen.KernelIdeal.Launch
import proofs.«421950_j9620726743150_3_alg».proof.Proof.LibRegion
import Idealize.ShloMosaic.Lib.Writes
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Each output gets one whole-block store, so it ends at that store's payload; the inputs are only read. -/
theorem proj_x_run (c : Dev nD) (E : Set ℕ) (i : grid0.Coords)
    {mX : Memref sig .tc .vmem S2560x128 .f32} {hX : mX.IsWhole}
    {mW1 : Memref sig .tc .vmem S128x128 .f32} {hW1 : mW1.IsWhole}
    {mWd : Memref sig .tc .vmem S128x128 .f32} {hWd : mWd.IsWhole}
    {mBd : Memref sig .tc .vmem S1x128 .f32} {hBd : mBd.IsWhole}
    {mP : Memref sig .tc .vmem S2560x128 .bf16} {hP : mP.IsWhole}
    {mS : Memref sig .tc .vmem S2560x128 .f32} {hS : mS.IsWhole}
    (x : Vec F S2560x128 .f32) (w1 wd : Vec F S128x128 .f32) (bd : Vec F S1x128 .f32) (K : PUnit → sProp 𝕄) :
    iprop(owns (c : Thread nD τ) mX fullShare x ∗ owns (c : Thread nD τ) mW1 fullShare w1
        ∗ owns (c : Thread nD τ) mWd fullShare wd ∗ owns (c : Thread nD τ) mBd fullShare bd
        ∗ (∃ d, owns (c : Thread nD τ) mP fullShare d) ∗ (∃ d, owns (c : Thread nD τ) mS fullShare d)
        ∗ (iprop(owns (c : Thread nD τ) mX fullShare x ∗ owns (c : Thread nD τ) mW1 fullShare w1
            ∗ owns (c : Thread nD τ) mWd fullShare wd ∗ owns (c : Thread nD τ) mBd fullShare bd
            ∗ owns (c : Thread nD τ) mP fullShare (k0_pay2 x w1)
            ∗ owns (c : Thread nD τ) mS fullShare (k0_pay3 x wd bd)) -∗ K ⟨⟩))
      ⊢ wp frame (wpE (defs₀ (F := F)) Variants.none c none) E
          (cc0__proj_x_kernel i mX hX mW1 hW1 mWd hWd mBd hBd mP hP mS hS) K := by
  simp only [cc0__proj_x_kernel_eq_skeleton]; unfold cc0__proj_x_kernel_skel
  unfold owns
  iintro ⟨⟨%fX, %hfX, HX⟩, ⟨%fW1, %hfW1, HW1⟩, ⟨%fWd, %hfWd, HWd⟩, ⟨%fBd, %hfBd, HBd⟩, ⟨%dP, %fP, -, HP⟩, ⟨%dS, %fS, -, HS⟩, Hk⟩
  subst hfX hfW1 hfWd hfBd
  sl_exec
  sl_step
  iapply Hk
  isplitl [HX]; · iexists fX; isplitr; (· ipureintro; rfl); iexact HX
  isplitl [HW1]; · iexists fW1; isplitr; (· ipureintro; rfl); iexact HW1
  isplitl [HWd]; · iexists fWd; isplitr; (· ipureintro; rfl); iexact HWd
  isplitl [HBd]; · iexists fBd; isplitr; (· ipureintro; rfl); iexact HBd
  isplitl [HP]
  all_goals
    iexists _; isplitr; swap; (· first | iexact HP | iexact HS); ipureintro
    refine (View.read_writes_unit_zero _ _ View.zero2 _ _ _).trans ?_
    simp only [View.readAt_eq_ld, View.ld_unit_zero (S := S2560x128) View.zero2,
      View.ld_unit_zero (S := S128x128) View.zero2, View.ld_unit_zero (S := S1x128) View.zero2]

end Cert.KernelIdeal.Hand

end
-- ==== Proof.KIDat0.lean ====
import proofs.«421950_j9620726743150_3_alg».proof.Proof.Gen.KernelIdeal.Launch
import proofs.«421950_j9620726743150_3_alg».proof.Proof.Gen.KernelIdeal.Skeleton
import proofs.«421950_j9620726743150_3_alg».proof.Proof.Gen.KernelIdeal.Points
import proofs.«421950_j9620726743150_3_alg».proof.Proof.KIBody0
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) (iblk0 V c 3 t) := by dsimp only [dat0]

/-- The body leaves every input block as it found it. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (k0_pay2 (iblk0 V c 0 t) (iblk0 V c 1 t))
    ∗ owns (c : Thread nD τ) (st0_5 t) fullShare (k0_pay3 (iblk0 V c 0 t) (iblk0 V c 2 t) (iblk0 V c 3 t)))

/-- Every point runs the same body on its blocks; the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3]
  iintro ⟨HΦ, Ho, ⟨%d0, H0⟩, ⟨%d1, H1⟩, ⟨%d2, H2⟩, ⟨%d3, H3⟩, ⟨%d4, H4⟩, ⟨%d5, H5⟩⟩
  iapply (proj_x_run c Set.univ _ _ _ _ _ _)
  iframe H0 H1 H2 H3
  isplitl [H4]; · iexists _; iexact H4
  isplitl [H5]; · iexists _; iexact H5
  iintro ⟨H0, H1, H2, H3, H4, H5⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Hand

end
-- ==== Proof.KIDat1.lean ====
import proofs.«421950_j9620726743150_3_alg».proof.Proof.Gen.KernelIdeal
import proofs.«421950_j9620726743150_3_alg».proof.Proof.Gen.KernelIdeal.Skeleton
import proofs.«421950_j9620726743150_3_alg».proof.Proof.Gen.KernelIdeal.Launch
import proofs.«421950_j9620726743150_3_alg».proof.Proof.Gen.KernelIdeal.Points
import proofs.«421950_j9620726743150_3_alg».proof.Proof.LibRegion
import Idealize.ShloMosaic.Lib.Writes
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev accM1 : Memref sig .tc .vmem S2560x128 .f32 := Memref.whole cc1_scratch0

abbrev IsFirst1 (t : Fin cfg1.N) : Prop :=
  Scalar.cmpi .ne (Scalar.extui (Scalar.cmpi .eq (BitVec.ofNat 32 ((grid1.coords t) 1).val) 0#32)) 0#32 = 1#1
abbrev IsLast1 (t : Fin cfg1.N) : Prop := k1_cond2 (grid1.coords t) = 1#1

section Runs

variable (c : Dev nD) (t : Fin cfg1.N)
  {M0 : Memref sig .tc .vmem S2560x2560 .bf16} (h0 : M0.IsWhole) {M1 : Memref sig .tc .vmem S2560x128 .bf16} (h1 : M1.IsWhole)
  {M2 : Memref sig .tc .vmem S1x128 .f32} (h2 : M2.IsWhole) {M3 : Memref sig .tc .vmem S128x128 .f32} (h3 : M3.IsWhole)
  {M4 : Memref sig .tc .vmem S2560x128 .bf16} (h4 : M4.IsWhole)
  (adj : Vec F S2560x2560 .bf16) (x : Vec F S2560x128 .bf16) (bias : Vec F S1x128 .f32) (wt : Vec F S128x128 .f32)
  (a : Vec F S2560x128 .f32)

local notation "AGG" => cc1__aggregate1_kernel (grid1.coords t) M0 h0 M1 h1 M2 h2 M3 h3 M4 h4 (Memref.whole cc1_scratch0) (Memref.isWhole_whole _)

/-- A step that is not a row block's last adds the block product to the accumulator, zeroed first at a first step. -/
theorem run_acc1 (hL : ¬ IsLast1 t) (O : sProp 𝕄) (Q : PUnit → sProp 𝕄) :
    iprop(owns (c : Thread nD τ) M0 fullShare adj ∗ owns (c : Thread nD τ) M1 fullShare x ∗ O ∗ owns (c : Thread nD τ) accM1 fullShare a
      ∗ (iprop(owns (c : Thread nD τ) M0 fullShare adj ∗ owns (c : Thread nD τ) M1 fullShare x ∗ O
          ∗ owns (c : Thread nD τ) accM1 fullShare (k1_pay2 (if IsFirst1 t then k1_pay1 else a) adj x)) -∗ Q ⟨⟩))
      ⊢ wp frame (wpE (defs₀ (F := F)) Variants.none c none) Set.univ AGG Q := by
  by_cases hF : IsFirst1 t
  all_goals
    first | rw [if_pos hF] | rw [if_neg hF]
    unfold owns
    iintro ⟨⟨%f0, %hf0, H0⟩, ⟨%f1, %hf1, H1⟩, HO, ⟨%fa, %hfa, Ha⟩, Hk⟩
    subst hf0 hf1 hfa
    sl_exec! (disch := assumption)
    sl_step
    iapply Hk
    isplitl [H0]; · iexists f0; isplitr; (· ipureintro; rfl); iexact H0
    isplitl [H1]; · iexists f1; isplitr; (· ipureintro; rfl); iexact H1
    isplitl [HO]; · iexact HO
    iexists _; isplitr; swap; (· iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2]

/-- A last step adds the block product; the output block is the rounded relu(sum + bias) · weights. -/
theorem run_last1 (hF : ¬ IsFirst1 t) (hL : IsLast1 t) (Q : PUnit → sProp 𝕄) :
    iprop(owns (c : Thread nD τ) M0 fullShare adj ∗ owns (c : Thread nD τ) M1 fullShare x
      ∗ owns (c : Thread nD τ) M2 fullShare bias ∗ owns (c : Thread nD τ) M3 fullShare wt
      ∗ (∃ d, owns (c : Thread nD τ) M4 fullShare d) ∗ owns (c : Thread nD τ) accM1 fullShare a
      ∗ (iprop(owns (c : Thread nD τ) M0 fullShare adj ∗ owns (c : Thread nD τ) M1 fullShare x
          ∗ owns (c : Thread nD τ) M2 fullShare bias ∗ owns (c : Thread nD τ) M3 fullShare wt
          ∗ owns (c : Thread nD τ) M4 fullShare (k1_pay3 (k1_pay2 a adj x) bias wt)
          ∗ owns (c : Thread nD τ) accM1 fullShare (k1_pay2 a adj x)) -∗ Q ⟨⟩))
      ⊢ wp frame (wpE (defs₀ (F := F)) Variants.none c none) Set.univ AGG Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, Hk⟩
  subst hf0 hf1 hf2 hf3 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]
  all_goals
    iexists _; isplitr; swap; (· first | iexact H4 | iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2,
      View.ld_unit_zero (S := S1x128) View.zero2, View.ld_unit_zero (S := S128x128) View.zero2]

end Runs

theorem isFirst1_iff : ∀ t : Fin cfg1.N, IsFirst1 t ↔ t.val % 4 = 0 :=
  (by decide +kernel : ∀ t : Fin grid1.N,
    (Scalar.cmpi .ne (Scalar.extui (Scalar.cmpi .eq (BitVec.ofNat 32 ((grid1.coords t) 1).val) 0#32)) 0#32 = 1#1) ↔ t.val % 4 = 0)
theorem isLast1_iff : ∀ t : Fin cfg1.N, IsLast1 t ↔ t.val % 4 = 3 :=
  (by decide +kernel : ∀ t : Fin grid1.N, k1_cond2 (grid1.coords t) = 1#1 ↔ t.val % 4 = 3)

/-- The output block is produced exactly at a row block's last step. -/
theorem outIdle1_of_last (t : Fin cfg1.N) (h : IsLast1 t) : idle1 4 (grid1.coords t) = false := by
  show (!(k1_cond2 (grid1.coords t) == 1#1)) = false
  rw [beq_iff_eq.mpr h]; rfl
theorem outIdle1_of_not_last (t : Fin cfg1.N) (h : ¬ IsLast1 t) : idle1 4 (grid1.coords t) = true := by
  show (!(k1_cond2 (grid1.coords t) == 1#1)) = true
  rw [beq_eq_false_iff_ne.mpr h]; rfl
theorem outFlush1_of_last (t : Fin cfg1.N) (h : IsLast1 t) : (cfg1.win 4).flush t = true :=
  (flush1_4 t).mpr ((isLast1_iff t).mp h)
theorem outFlush1_of_not_last (t : Fin cfg1.N) (h : ¬ IsLast1 t) : (cfg1.win 4).flush t = false :=
  Bool.eq_false_iff.mpr fun hf => h ((isLast1_iff t).mpr ((flush1_4 t).mp hf))
theorem inLive1_0 (t : Fin cfg1.N) : idle1 0 (grid1.coords t) = false := rfl
theorem inLive1_1 (t : Fin cfg1.N) : idle1 1 (grid1.coords t) = false := rfl
theorem inLive1_2 (t : Fin cfg1.N) : idle1 2 (grid1.coords t) = false := rfl
theorem inLive1_3 (t : Fin cfg1.N) : idle1 3 (grid1.coords t) = false := rfl

def others1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ others1 (F := F) c) :=
  Pipeline.scopedRest_split_of_list spec1 c [cc1_scratch0] (by decide) (by decide)

section Data

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev adjBlk1 (c : Dev nD) (t : Fin cfg1.N) : Vec F S2560x2560 .bf16 := iblk1 V c 0 t
abbrev featBlk1 (c : Dev nD) (t : Fin cfg1.N) : Vec F S2560x128 .bf16 := iblk1 V c 1 t
abbrev biasBlk1 (c : Dev nD) (t : Fin cfg1.N) : Vec F S1x128 .f32 := iblk1 V c 2 t
abbrev wtBlk1 (c : Dev nD) (t : Fin cfg1.N) : Vec F S128x128 .f32 := iblk1 V c 3 t

def acc1 (c : Dev nD) : (k : ℕ) → k < cfg1.N → Vec F S2560x128 .f32
  | 0, hk => k1_pay2 k1_pay1 (adjBlk1 V c ⟨0, hk⟩) (featBlk1 V c ⟨0, hk⟩)
  | k + 1, hk =>
    if (k + 1) % 4 = 0 then k1_pay2 k1_pay1 (adjBlk1 V c ⟨k + 1, hk⟩) (featBlk1 V c ⟨k + 1, hk⟩)
    else k1_pay2 (acc1 c k (Nat.lt_of_succ_lt hk)) (adjBlk1 V c ⟨k + 1, hk⟩) (featBlk1 V c ⟨k + 1, hk⟩)

theorem acc1_first (c : Dev nD) (t : Fin cfg1.N) (h : t.val % 4 = 0) :
    acc1 V c t.val t.isLt = k1_pay2 k1_pay1 (iblk1 V c 0 t) (iblk1 V c 1 t) := by
  obtain ⟨k, hk⟩ := t
  cases k with
  | zero => rfl
  | succ k => show (if (k + 1) % 4 = 0 then _ else _) = _; rw [if_pos h]

theorem acc1_step (c : Dev nD) (t : Fin cfg1.N) (h : t.val % 4 ≠ 0) (hp : t.val - 1 < cfg1.N) :
    acc1 V c t.val t.isLt = k1_pay2 (acc1 V c (t.val - 1) hp) (iblk1 V c 0 t) (iblk1 V c 1 t) := by
  obtain ⟨k, hk⟩ := t
  cases k with
  | zero => exact absurd rfl h
  | succ k => show (if (k + 1) % 4 = 0 then _ else _) = _; rw [if_neg h]; rfl

def sumPart1 (c : Dev nD) (k : Fin (cfg1.N + 1)) : sProp 𝕄 :=
  if h : k.val % 4 = 0 then iprop(∃ a, owns (c : Thread nD τ) accM1 fullShare a)
  else owns (c : Thread nD τ) accM1 fullShare (acc1 V c (k.val - 1) (by have := k.isLt; omega))

def Φ1 (c : Dev nD) (k : Fin (cfg1.N + 1)) : sProp 𝕄 :=
  iprop((sumPart1 V c k ∗ others1 (F := F) c) ∗ ∃ r, prngReg c r)

/-- The region's proof data: the arrays as found; each input's block, and the output's as the epilogue of the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (biasBlk1 V c t) (wtBlk1 V c t)
  Φ k := Φ1 V c k
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

theorem before1_0 (c : Dev nD) (t : Fin cfg1.N) (d) : (dat1 V c).before 0 t d = iblk1 V c 0 t := by
  rw [(dat1 V c).before_fetched 0 t (fetch1_0 t)]
  unfold Dat.fetched Dat.blockOf iblk1; rw [A_eq1]; rfl
theorem before1_1 (c : Dev nD) (t : Fin cfg1.N) (d) : (dat1 V c).before 1 t d = iblk1 V c 1 t := by
  rw [(dat1 V c).before_fetched 1 t (fetch1_1 t)]
  unfold Dat.fetched Dat.blockOf iblk1; rw [A_eq1]; rfl
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]) t d).trans
    (by unfold Dat.fetched Dat.blockOf iblk1; rw [A_eq1]; rfl)

/-- The invariant at a boundary whose number is ≡ 0 (mod 4), and before and after a point at any other. -/
theorem Φ1_zero (c : Dev nD) (k : Fin (cfg1.N + 1)) (h : k.val % 4 = 0) :
    (dat1 V c).Φ k = iprop(((∃ a, owns (c : Thread nD τ) accM1 fullShare a) ∗ others1 (F := F) c) ∗ ∃ r, prngReg c r) := by
  show Φ1 V c _ = _; unfold Φ1 sumPart1; rw [dif_pos h]
theorem Φ1_pre (c : Dev nD) (t : Fin cfg1.N) (h : t.val % 4 ≠ 0) (hp : t.val - 1 < cfg1.N) :
    (dat1 V c).Φ t.castSucc = iprop((owns (c : Thread nD τ) accM1 fullShare (acc1 V c (t.val - 1) hp) ∗ others1 (F := F) c) ∗ ∃ r, prngReg c r) := by
  show Φ1 V c _ = _; unfold Φ1 sumPart1; rw [dif_neg (by exact h)]; rfl
theorem Φ1_succ (c : Dev nD) (t : Fin cfg1.N) (h : (t.val + 1) % 4 ≠ 0) :
    (dat1 V c).Φ t.succ = iprop((owns (c : Thread nD τ) accM1 fullShare (acc1 V c t.val t.isLt) ∗ others1 (F := F) c) ∗ ∃ r, prngReg c r) := by
  show Φ1 V c _ = _; unfold Φ1 sumPart1; rw [dif_neg (by exact h)]; rfl

theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  have hN := N_1
  have ht := t.isLt
  have w0 : (st1_0 t).IsWhole := hstage1_0 ((cfg1.slots t 0).cast nbuf1_0)
  have w1 : (st1_1 t).IsWhole := hstage1_1 ((cfg1.slots t 1).cast nbuf1_1)
  have w2 : (st1_2 t).IsWhole := hstage1_2 ((cfg1.slots t 2).cast nbuf1_2)
  have w3 : (st1_3 t).IsWhole := hstage1_3 ((cfg1.slots t 3).cast nbuf1_3)
  have w4 : (st1_4 t).IsWhole := hstage1_4 ((cfg1.slots t 4).cast nbuf1_4)
  simp only [inLive1_0, inLive1_1, inLive1_2, inLive1_3, before1_0, before1_1, before1_2, before1_3,
    after1_0, after1_1, after1_2, after1_3, after1_4]
  by_cases hL : IsLast1 t
  · have h3 : t.val % 4 = 3 := (isLast1_iff t).mp hL
    have hF : ¬ IsFirst1 t := fun h => by have := (isFirst1_iff t).mp h; omega
    have h0 : t.val % 4 ≠ 0 := by omega
    simp only [outIdle1_of_last t hL, outFlush1_of_last t hL]
    rw [Φ1_pre V c t h0 (by omega), Φ1_zero V c t.succ (by show (t.val + 1) % 4 = 0; omega), acc1_step V c t h0 (by omega)]
    iintro ⟨⟨⟨Ha, Hr⟩, Hp⟩, HO, ⟨%d0, H0⟩, ⟨%d1, H1⟩, ⟨%d2, H2⟩, ⟨%d3, H3⟩, ⟨%d4, H4⟩⟩
    iapply (run_last1 c t w0 w1 w2 w3 w4 _ _ _ _ _ hF hL)
    iframe H0 H1 H2 H3 Ha
    isplitl [H4]; · iexists _; iexact H4
    iintro ⟨H0, H1, H2, H3, H4, Ha⟩
    iframe Hr Hp HO H0 H1 H2 H3 H4
    iexists _; iexact Ha
  · have h3 : t.val % 4 ≠ 3 := fun h => hL ((isLast1_iff t).mpr h)
    simp only [outIdle1_of_not_last t hL, outFlush1_of_not_last t hL]
    rw [Φ1_succ V c t (by omega)]
    by_cases hF : IsFirst1 t
    on_goal 1 =>
      have h0 : t.val % 4 = 0 := (isFirst1_iff t).mp hF
      rw [Φ1_zero V c t.castSucc h0, acc1_first V c t h0]
      iintro ⟨⟨⟨⟨%a, Ha⟩, Hr⟩, Hp⟩, HO, ⟨%d0, H0⟩, ⟨%d1, H1⟩, ⟨%d2, H2⟩, ⟨%d3, H3⟩, H4⟩
    on_goal 2 =>
      have h0 : t.val % 4 ≠ 0 := fun h => hF ((isFirst1_iff t).mpr h)
      rw [Φ1_pre V c t h0 (by omega), acc1_step V c t h0 (by omega)]
      iintro ⟨⟨⟨Ha, Hr⟩, Hp⟩, HO, ⟨%d0, H0⟩, ⟨%d1, H1⟩, ⟨%d2, H2⟩, ⟨%d3, H3⟩, H4⟩
    all_goals
      iapply (run_acc1 c t w0 w1 w2 w3 w4 _ _ _ hL
        iprop(owns (c : Thread nD τ) (st1_2 t) fullShare (iblk1 V c 2 t) ∗ owns (c : Thread nD τ) (st1_3 t) fullShare (iblk1 V c 3 t)
          ∗ ∃ d, owns (c : Thread nD τ) (st1_4 t) fullShare ((dat1 V c).before 4 t d)))
      first | rw [if_pos hF] | rw [if_neg hF]
      iframe H0 H1 H2 H3 H4 Ha
      iintro ⟨H0, H1, ⟨H2, H3, H4⟩, Ha⟩
      iframe

theorem sumPart1_zero (c : Dev nD) (k : Fin (cfg1.N + 1)) (h : k.val % 4 = 0) :
    sumPart1 V c k = iprop(∃ a, owns (c : Thread nD τ) accM1 fullShare a) := by
  unfold sumPart1; exact dif_pos h

/-- The invariant at the first boundary holds whatever the accumulator contains, and at the last boundary forgets what it
    contains. -/
theorem hin1 (c : Dev nD) : (Pipeline.ΦA spec1 c : sProp 𝕄) ⊢ (dat1 V c).Φ 0 := by
  rw [show (dat1 V c).Φ 0 = Φ1 V c 0 from rfl]
  unfold Φ1 Pipeline.ΦA; rw [sumPart1_zero V c 0 (by decide), scopedRest1_split]
  iintro ⟨⟨⟨%f, Hf⟩, Hr⟩, Hp⟩
  iframe Hr Hp
  iexists f; rw [owns_whole_eq]; iexists f; isplitr; (· ipureintro; rfl); iexact Hf

theorem hout1 (c : Dev nD) : (dat1 V c).Φ (Fin.last cfg1.N) ⊢ (Pipeline.ΦA spec1 c : sProp 𝕄) := by
  rw [show (dat1 V c).Φ (Fin.last cfg1.N) = Φ1 V c (Fin.last cfg1.N) from rfl]
  unfold Φ1 Pipeline.ΦA; rw [sumPart1_zero V c _ (by decide), scopedRest1_split]; simp only [owns_whole_eq]
  iintro ⟨⟨⟨%a, %f, %hf, Hf⟩, Hr⟩, Hp⟩
  iframe Hr Hp
  iexists f; iexact Hf

end Data

end Cert.KernelIdeal.Hand

end
-- ==== Proof.KIBody2.lean ====
import proofs.«421950_j9620726743150_3_alg».proof.Proof.Gen.KernelIdeal
import proofs.«421950_j9620726743150_3_alg».proof.Proof.Gen.KernelIdeal.Skeleton
import proofs.«421950_j9620726743150_3_alg».proof.Proof.Gen.KernelIdeal.Launch
import proofs.«421950_j9620726743150_3_alg».proof.Proof.Gen.KernelIdeal.Points
import proofs.«421950_j9620726743150_3_alg».proof.Proof.LibRegion
import Idealize.ShloMosaic.Lib.Writes
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev accM2 : Memref sig .tc .vmem S2560x128 .f32 := Memref.whole cc2_scratch0

abbrev IsFirst2 (t : Fin cfg2.N) : Prop :=
  Scalar.cmpi .ne (Scalar.extui (Scalar.cmpi .eq (BitVec.ofNat 32 ((grid2.coords t) 1).val) 0#32)) 0#32 = 1#1
abbrev IsLast2 (t : Fin cfg2.N) : Prop := k2_cond2 (grid2.coords t) = 1#1

section Runs

variable (c : Dev nD) (t : Fin cfg2.N)
  {M0 : Memref sig .tc .vmem S2560x2560 .bf16} {h0 : M0.IsWhole} {M1 : Memref sig .tc .vmem S2560x128 .bf16} {h1 : M1.IsWhole}
  {M2 : Memref sig .tc .vmem S1x128 .f32} {h2 : M2.IsWhole} {M3 : Memref sig .tc .vmem S2560x128 .f32} {h3 : M3.IsWhole}
  {M4 : Memref sig .tc .vmem S128x16 .f32} {h4 : M4.IsWhole} {M5 : Memref sig .tc .vmem S1x16 .f32} {h5 : M5.IsWhole}
  {M6 : Memref sig .tc .vmem S128x2 .f32} {h6 : M6.IsWhole} {M7 : Memref sig .tc .vmem S1x2 .f32} {h7 : M7.IsWhole}
  {M8 : Memref sig .tc .vmem S2560x128 .f32} {h8 : M8.IsWhole}
  (xA : Vec F S2560x2560 .bf16) (xX : Vec F S2560x128 .bf16) (xb : Vec F S1x128 .f32) (xo : Vec F S2560x128 .f32)
  (xWl : Vec F S128x16 .f32) (xbl : Vec F S1x16 .f32) (xWd : Vec F S128x2 .f32) (xbd : Vec F S1x2 .f32) (a : Vec F S2560x128 .f32)

local notation "AGG2" => cc2__aggregate2_heads_kernel (grid2.coords t) M0 h0 M1 h1 M2 h2 M3 h3 M4 h4 M5 h5 M6 h6 M7 h7 M8 h8 (Memref.whole cc2_scratch0) (Memref.isWhole_whole _)

/-- A step that is not a row block's last adds the block product to the accumulator, zeroed first at a first step. -/
theorem run_acc2 (hL : ¬ IsLast2 t) (O : sProp 𝕄) (Q : PUnit → sProp 𝕄) :
    iprop(owns (c : Thread nD τ) M0 fullShare xA ∗ owns (c : Thread nD τ) M1 fullShare xX ∗ O ∗ owns (c : Thread nD τ) accM2 fullShare a
      ∗ (iprop(owns (c : Thread nD τ) M0 fullShare xA ∗ owns (c : Thread nD τ) M1 fullShare xX ∗ O
          ∗ owns (c : Thread nD τ) accM2 fullShare (k2_pay2 (if IsFirst2 t then k2_pay1 else a) xA xX)) -∗ Q ⟨⟩))
      ⊢ wp frame (wpE (defs₀ (F := F)) Variants.none c none) Set.univ AGG2 Q := by
  by_cases hF : IsFirst2 t
  all_goals
    first | rw [if_pos hF] | rw [if_neg hF]
    simp only [cc2__aggregate2_heads_kernel_eq_skeleton]; unfold cc2__aggregate2_heads_kernel_skel
    unfold owns
    iintro ⟨⟨%f0, %hf0, H0⟩, ⟨%f1, %hf1, H1⟩, HO, ⟨%fa, %hfa, Ha⟩, Hk⟩
    subst hf0 hf1 hfa
    sl_exec! (disch := assumption)
    sl_step
    iapply Hk
    isplitl [H0]; · iexists f0; isplitr; (· ipureintro; rfl); iexact H0
    isplitl [H1]; · iexists f1; isplitr; (· ipureintro; rfl); iexact H1
    isplitl [HO]; · iexact HO
    iexists _; isplitr; swap; (· iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2]

/-- A last step adds the block product to the accumulator and stores the heads of the finished sum. -/
theorem run_last2 (hF : ¬ IsFirst2 t) (hL : IsLast2 t) (Q : PUnit → sProp 𝕄) :
    iprop(owns (c : Thread nD τ) M0 fullShare xA ∗ owns (c : Thread nD τ) M1 fullShare xX ∗ owns (c : Thread nD τ) M2 fullShare xb
      ∗ owns (c : Thread nD τ) M3 fullShare xo ∗ owns (c : Thread nD τ) M4 fullShare xWl ∗ owns (c : Thread nD τ) M5 fullShare xbl
      ∗ owns (c : Thread nD τ) M6 fullShare xWd ∗ owns (c : Thread nD τ) M7 fullShare xbd
      ∗ (∃ d, owns (c : Thread nD τ) M8 fullShare d) ∗ owns (c : Thread nD τ) accM2 fullShare a
      ∗ (iprop(owns (c : Thread nD τ) M0 fullShare xA ∗ owns (c : Thread nD τ) M1 fullShare xX ∗ owns (c : Thread nD τ) M2 fullShare xb
          ∗ owns (c : Thread nD τ) M3 fullShare xo ∗ owns (c : Thread nD τ) M4 fullShare xWl ∗ owns (c : Thread nD τ) M5 fullShare xbl
          ∗ owns (c : Thread nD τ) M6 fullShare xWd ∗ owns (c : Thread nD τ) M7 fullShare xbd
          ∗ owns (c : Thread nD τ) M8 fullShare (k2_pay3 (k2_pay2 a xA xX) xb xo xWl xbl xWd xbd)
          ∗ owns (c : Thread nD τ) accM2 fullShare (k2_pay2 a xA xX)) -∗ Q ⟨⟩))
      ⊢ wp frame (wpE (defs₀ (F := F)) Variants.none c none) Set.univ AGG2 Q := by
  simp only [cc2__aggregate2_heads_kernel_eq_skeleton]; unfold cc2__aggregate2_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%d8, %f8, %hf8, H8⟩, ⟨%fa, %hfa, Ha⟩, Hk⟩
  subst hf0 hf1 hf2 hf3 hf4 hf5 hf6 hf7 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]
  all_goals
    iexists _; isplitr; swap; (· first | iexact H8 | iexact Ha); ipureintro
    refine (View.read_writes_unit_zero _ _ View.zero2 _ _ _).trans ?_
    sl_unfold_words
    simp only [View.readAt_eq_ld, View.readCov_unit_zero (S := S2560x128) _ View.zero2,
      View.ld_unit_zero (S := S2560x128) View.zero2, View.ld_unit_zero (S := S2560x2560) View.zero2,
      View.ld_unit_zero (S := S1x128) View.zero2, View.ld_unit_zero (S := S128x16) View.zero2,
      View.ld_unit_zero (S := S1x16) View.zero2, View.ld_unit_zero (S := S128x2) View.zero2,
      View.ld_unit_zero (S := S1x2) View.zero2]

end Runs

end Cert.KernelIdeal.Hand

end
-- ==== Proof.KIDat2.lean ====
import proofs.«421950_j9620726743150_3_alg».proof.Proof.KIBody2
import Idealize.ShloMosaic.Lib.Pipeline.FrameBody
import Idealize.ShloMosaic.Lib.Pipeline.Kit

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem isFirst2_iff : ∀ t : Fin cfg2.N, IsFirst2 t ↔ t.val % 4 = 0 :=
  (by decide +kernel : ∀ t : Fin grid2.N, (Scalar.cmpi .ne (Scalar.extui (Scalar.cmpi .eq (BitVec.ofNat 32 ((grid2.coords t) 1).val) 0#32)) 0#32 = 1#1) ↔ t.val % 4 = 0)
theorem isLast2_iff : ∀ t : Fin cfg2.N, IsLast2 t ↔ t.val % 4 = 3 :=
  (by decide +kernel : ∀ t : Fin grid2.N, k2_cond2 (grid2.coords t) = 1#1 ↔ t.val % 4 = 3)

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (k : ℕ) → k < cfg2.N → Vec F S2560x128 .f32
  | 0, hk => k2_pay2 (k2_pay1 (F := F)) (iblk2 V c 0 ⟨0, hk⟩) (iblk2 V c 1 ⟨0, hk⟩)
  | k + 1, hk =>
    if (k + 1) % 4 = 0 then k2_pay2 (k2_pay1 (F := F)) (iblk2 V c 0 ⟨k + 1, hk⟩) (iblk2 V c 1 ⟨k + 1, hk⟩)
    else k2_pay2 (acc2 c k (Nat.lt_of_succ_lt hk)) (iblk2 V c 0 ⟨k + 1, hk⟩) (iblk2 V c 1 ⟨k + 1, hk⟩)

theorem acc2_first (c : Dev nD) (t : Fin cfg2.N) (h : t.val % 4 = 0) :
    acc2 V c t.val t.isLt = k2_pay2 (k2_pay1 (F := F)) (iblk2 V c 0 t) (iblk2 V c 1 t) := by
  obtain ⟨k, hk⟩ := t
  cases k with
  | zero => rfl
  | succ k => show (if (k + 1) % 4 = 0 then _ else _) = _; rw [if_pos h]

theorem acc2_step (c : Dev nD) (t : Fin cfg2.N) (h : t.val % 4 ≠ 0) (hp : t.val - 1 < cfg2.N) :
    acc2 V c t.val t.isLt = k2_pay2 (acc2 V c (t.val - 1) hp) (iblk2 V c 0 t) (iblk2 V c 1 t) := by
  obtain ⟨k, hk⟩ := t
  cases k with
  | zero => exact absurd rfl h
  | succ k => show (if (k + 1) % 4 = 0 then _ else _) = _; rw [if_neg h]; rfl

abbrev restM2 (c : Dev nD) : sProp 𝕄 :=
  Pipeline.scopedRestBut (Ix := Unit) (Name := ℕ) (U := UR sig nD τ) (Lvl := ℕ) (Val := Elt F) spec2 c [cc2_scratch0]

/-- The accumulator before point `k`: at anything where a row block starts, else at the sum the point before left. -/
def accPart2 (c : Dev nD) (k : Fin (cfg2.N + 1)) : sProp 𝕄 :=
  if h : k.val % 4 = 0 then iprop(∃ a, owns (c : Thread nD τ) accM2 fullShare a)
  else owns (c : Thread nD τ) accM2 fullShare (acc2 V c (k.val - 1) (by have := k.isLt; omega))

def Φ2 (c : Dev nD) (k : Fin (cfg2.N + 1)) : sProp 𝕄 := iprop(accPart2 V c k ∗ restM2 c ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => k2_pay3 (acc2 V c t.val t.isLt) (iblk2 V c 2 t) (iblk2 V c 3 t) (iblk2 V c 4 t) (iblk2 V c 5 t) (iblk2 V c 6 t) (iblk2 V c 7 t)
  Φ k := Φ2 V c k
  q _ := fullShare
  owed _ := 0

theorem A_eq2 (c : Dev nD) (w : Fin cfg2.W) : (dat2 V c).A w = V c (Pipeline.arrRef spec2 w) := by
  dsimp only [dat2]

theorem after2_8 (c : Dev nD) (t : Fin cfg2.N) :
    (dat2 V c).after 8 t = k2_pay3 (acc2 V c t.val t.isLt) (iblk2 V c 2 t) (iblk2 V c 3 t) (iblk2 V c 4 t) (iblk2 V c 5 t) (iblk2 V c 6 t) (iblk2 V c 7 t) := by dsimp only [dat2]

/-- The body leaves every input block as it found it. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

/-- The output block is written exactly at a row block's last step. -/
theorem leaves2_8 (c : Dev nD) (t : Fin cfg2.N) :
    (dat2 V c).leavesExact 8 t = if IsLast2 t then owns (c : Thread nD τ) (st2_8 t) fullShare ((dat2 V c).after 8 t)
      else iprop(∃ d, owns (c : Thread nD τ) (st2_8 t) fullShare ((dat2 V c).before 8 t d)) := by
  by_cases h : IsLast2 t
  · rw [if_pos h]; unfold Dat.leavesExact
    rw [show cfg2.idle 8 (grid2.coords t) = false from by
      show (!(k2_cond2 (grid2.coords t) == 1#1)) = false; rw [beq_iff_eq.mpr h]; rfl]
  · rw [if_neg h]
    exact Dat.leavesExact_idle (dat2 V c) 8 t
      (by show (!(k2_cond2 (grid2.coords t) == 1#1)) = true; rw [beq_eq_false_iff_ne.mpr h]; rfl)
      (Bool.eq_false_iff.mpr fun hf => h ((isLast2_iff t).mpr ((flush2_8 t).mp hf)))

/-- The invariant before and after point `t`, by whether a row block starts there. -/
theorem Φ2_pre (c : Dev nD) (t : Fin cfg2.N) :
    (dat2 V c).Φ t.castSucc = iprop((if h : t.val % 4 = 0 then iprop(∃ a, owns (c : Thread nD τ) accM2 fullShare a)
      else owns (c : Thread nD τ) accM2 fullShare (acc2 V c (t.val - 1) (by have := t.isLt; omega))) ∗ restM2 c ∗ ∃ r, prngReg c r) := rfl
theorem Φ2_post (c : Dev nD) (t : Fin cfg2.N) :
    (dat2 V c).Φ t.succ = iprop((if h : (t.val + 1) % 4 = 0 then iprop(∃ a, owns (c : Thread nD τ) accM2 fullShare a)
      else owns (c : Thread nD τ) accM2 fullShare (acc2 V c t.val t.isLt)) ∗ restM2 c ∗ ∃ r, prngReg c r) := rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ owns (c : Thread nD τ) (st2_7 t) fullShare (iblk2 V c 7 t)
    ∗ (dat2 V c).leavesExact 8 t)

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2, before2_3, before2_4, before2_5, before2_6, before2_7]
  rw [leaves2_8, Φ2_pre, Φ2_post]
  have hN : cfg2.N = 16 := N_2
  have hlt := t.isLt
  by_cases hL : IsLast2 t
  · have h3 : t.val % 4 = 3 := (isLast2_iff t).mp hL
    have hF : ¬ IsFirst2 t := fun h => by have := (isFirst2_iff t).mp h; omega
    have h0 : t.val % 4 ≠ 0 := by omega
    rw [if_pos hL, after2_8, acc2_step V c t h0 (by omega), dif_neg h0, dif_pos (by omega)]
    iintro ⟨⟨Ha, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last2 c t _ _ _ _ _ _ _ _ _ hF hL)
    iframe H0 H1 H2 H3 H4 H5 H6 H7 Ha
    isplitl [H8]; · iexists _; iexact H8
    iintro ⟨H0, H1, H2, H3, H4, H5, H6, H7, H8, Ha⟩
    iframe Hr Hp Ho H0 H1 H2 H3 H4 H5 H6 H7 H8
    iexists _; iexact Ha
  · have h3 : (t.val + 1) % 4 ≠ 0 := fun h => hL ((isLast2_iff t).mpr (by omega))
    rw [if_neg hL, dif_neg h3]
    by_cases hF : IsFirst2 t
    on_goal 1 =>
      have h0 : t.val % 4 = 0 := (isFirst2_iff t).mp hF
      rw [dif_pos h0, acc2_first V c t h0]
      iintro ⟨⟨⟨%a, Ha⟩, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    on_goal 2 =>
      have h0 : t.val % 4 ≠ 0 := fun h => hF ((isFirst2_iff t).mpr h)
      rw [dif_neg h0, acc2_step V c t h0 (by omega)]
      iintro ⟨⟨Ha, Hr, Hp⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    all_goals
      iapply (run_acc2 c t _ _ _ hL
        iprop(owns (c : Thread nD τ) (st2_2 t) fullShare (iblk2 V c 2 t) ∗ owns (c : Thread nD τ) (st2_3 t) fullShare (iblk2 V c 3 t)
          ∗ owns (c : Thread nD τ) (st2_4 t) fullShare (iblk2 V c 4 t) ∗ owns (c : Thread nD τ) (st2_5 t) fullShare (iblk2 V c 5 t)
          ∗ owns (c : Thread nD τ) (st2_6 t) fullShare (iblk2 V c 6 t) ∗ owns (c : Thread nD τ) (st2_7 t) fullShare (iblk2 V c 7 t)
          ∗ ∃ d, owns (c : Thread nD τ) (st2_8 t) fullShare ((dat2 V c).before 8 t d)))
      first | rw [if_pos hF] | rw [if_neg hF]
      iframe H0 H1 H2 H3 H4 H5 H6 H7 H8 Ha
      iintro ⟨H0, H1, ⟨H2, H3, H4, H5, H6, H7, H8⟩, Ha⟩
      iframe

theorem body_obligation2 (c : Dev nD) : BodyObligation (dat2 (F := F) V c) (defs₀ (F := F)) Variants.none () Set.univ := fun t => by
  rw [bigSep_W2, bigSep_W2]
  exact sound_body2 V c t

/-- The accumulator's cell split off from the rest of the region's memory. -/
theorem ΦA_split2 (c : Dev nD) :
    (Pipeline.ΦA spec2 c : sProp 𝕄)
      = iprop(((∃ f : Buf (Elt F) ((c : Thread nD τ).loc cc2_scratch0), ((c : Thread nD τ).loc cc2_scratch0) ↦{fullShare} f) ∗ restM2 c)
          ∗ ∃ r, prngReg c r) := by
  unfold Pipeline.ΦA
  rw [Pipeline.scopedRest_split_of_list spec2 c [cc2_scratch0] (by decide) (by decide)]
  rfl

theorem hin2 (c : Dev nD) : (Pipeline.ΦA spec2 c : sProp 𝕄) ⊢ (dat2 V c).Φ 0 := by
  rw [ΦA_split2, show (dat2 V c).Φ 0 = iprop((∃ a, owns (c : Thread nD τ) accM2 fullShare a) ∗ restM2 c ∗ ∃ r, prngReg c r) from rfl]
  iintro ⟨⟨⟨%f, Hf⟩, Hr⟩, Hp⟩
  iframe Hr Hp
  iexists _; rw [owns_whole_eq]; iexists f; isplitr; (· ipureintro; rfl); iexact Hf

theorem hout2 (c : Dev nD) : (dat2 V c).Φ (Fin.last cfg2.N) ⊢ (Pipeline.ΦA spec2 c : sProp 𝕄) := by
  rw [ΦA_split2, show (dat2 V c).Φ (Fin.last cfg2.N) = iprop((∃ a, owns (c : Thread nD τ) accM2 fullShare a) ∗ restM2 c ∗ ∃ r, prngReg c r) from rfl]
  simp only [owns_whole_eq]
  iintro ⟨⟨%a, %f, %hf, Hf⟩, Hr, Hp⟩
  iframe Hr Hp
  iexists f; iexact Hf

end Region2

end Cert.KernelIdeal.Hand

end
-- ==== Proof.KISegs.lean ====
import proofs.«421950_j9620726743150_3_alg».proof.Proof.Gen.KernelIdeal.Launch
import proofs.«421950_j9620726743150_3_alg».proof.Proof.Gen.KernelIdeal.Regions
import proofs.«421950_j9620726743150_3_alg».proof.Proof.KIDat0
import proofs.«421950_j9620726743150_3_alg».proof.Proof.KIDat1
import proofs.«421950_j9620726743150_3_alg».proof.Proof.KIDat2
import Idealize.ShloMosaic.Lib.Pipeline.RegionsLoop
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer at each boundary of @main, folded from the launch memory: through each host stretch, and
    through each region, which changes only its output arrays. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b

def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b

abbrev W7 : Dev nD → Valuation τ sig (Elt F) := fun c => StableHlo.after hostOps3 (W6 m c)

def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
  | ⟨2, _⟩ => fun c => dat2 (V5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W7 m c) ∗ ∃ r, prngReg c r)

set_option backward.isDefEq.respectTransparency.types false in
/-- A region takes the contents `Wi` to `Wo` when `Wo` has the region's arrays at their final contents and agrees with
    `Wi` everywhere else. -/
def reg (p : Fin 3) (lf : Pipeline.LaunchFacts (nD := nD) (τ := τ) cfgs p) (Wi Wo : Dev nD → Valuation τ sig (Elt F))
    (hb : ∀ c, BodyObligation (pdats m p c) (defs₀ (F := F)) Variants.none () Set.univ)
    (hq : ∀ c w, (pdats m p c).q w = fullShare) (hz : ∀ c t, (pdats m p c).owed t = 0) (hrec : ∀ c x, x ∈ (pdats m p c).bound () 0)
    (hA : ∀ c w, (pdats m p c).A w = Wi c (Proc.devRef .tc (Pipeline.arrRef (cfgs p).spec w)))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄))
    (hF : ∀ c w, Wo c (Proc.devRef .tc (Pipeline.arrRef (cfgs p).spec w)) = (pdats m p c).arrAt w (cfgs p).N)
    (hr : ∀ c (b : Ref sig .tc), (∀ w, Pipeline.arrRef (cfgs p).spec w ≠ b) → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c (Proc.devRef .tc b))
  hentry c := by
    rw [Pipeline.ownSems0_none]
    have hsplit := Pipeline.arrays_of_unscopedBufs (p := p) (pcfgs (F := F)) adm (pdats m) lf.win lf.arr_whole c
      ((pdats m p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    rw [hz c 0]
    icases HO with ⟨%W, HO⟩; iexists W; iframe HO; ipureintro; exact fun x _ => hrec c x
  hin c := by
    refine BIBase.Entails.trans ?_ (hi c)
    unfold Pipeline.ΦA
    iintro ⟨Hp, -, Hr⟩
    iframe
  hout c := by
    rw [Pipeline.ownSems0_none]
    refine BIBase.Entails.trans (ho c) ?_
    unfold Pipeline.ΦA
    iintro ⟨Hr, Hp⟩
    iframe; iempintro
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c (Proc.devRef .tc b)) (fun b => Wo c (Proc.devRef .tc b)) ((pdats m p c).arrAt · (cfgs p).N) (fun w => (hF c w).symm)
      (fun b hb => hr c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c (Fin.last _)]
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg m 0 launch0 (W3 m) (W4 m) (body_obligation0 (V3 m)) (fun _ _ => rfl) (fun _ _ => rfl) (fun _ _ => Or.inl trivial) (A_eq0 (V3 m)) (hin0 (V3 m)) (hout0 (V3 m)) (W4_arr m) (W4_of_ne m)),
    .region (reg m 1 launch1 (W4 m) (W5 m) (body_obligation1 (V4 m)) (fun _ _ => rfl) (fun _ _ => rfl) (fun _ _ => Or.inl trivial) (A_eq1 (V4 m)) (hin1 (V4 m)) (hout1 (V4 m)) (W5_arr m) (W5_of_ne m)),
    .region (reg m 2 launch2 (W5 m) (W6 m) (body_obligation2 (V5 m)) (fun _ _ => rfl) (fun _ _ => rfl) (fun _ _ => Or.inl trivial) (A_eq2 (V5 m)) (hin2 (V5 m)) (hout2 (V5 m)) (W6_arr m) (W6_of_ne m)),
    .host (hseg hostOps3 hostOps3_sub hostOps3_fresh (W6 m)) ]

set_option backward.isDefEq.respectTransparency.types false in
/-- Every weakly fair execution of @main terminates with every buffer at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by
      rewrite [main_chain c, Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => show (iprop(StableHlo.held (c : Thread nD τ) (Pipeline.ucRefs τ sig) (W7 m c) ∗ R c) : sProp 𝕄)
        ⊢ iprop(Tₙ m c ∗ ∃ W, owes (c : Thread nD τ) (0 : CellTallies nD τ sig Unit) W) from by
      iintro ⟨Hh, Hp, HO⟩
      unfold Tₙ; iframe⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      iframe)
    (hQ := fun s h => h)

/-- A buffer no opening host stretch writes still holds its launch contents at the first region's entry. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- Putting arrays back changes no buffer whose new contents are its old ones. -/
theorem withArrays_keep {gr Wn : Nat} (win : Fin Wn → Pipeline.WinSpec sig gr) (hinj : Function.Injective (Pipeline.arrRef win))
    (c : Dev nD) (V : Valuation τ sig (Elt F)) (A : (w : Fin Wn) → Buf (Elt F) ((win w).arr.view.loc (c.tc : Thread nD τ)))
    (r : Ref sig .tc) (h : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw; exact (Pipeline.withArrays_arr win hinj c V A w).trans (h w rfl)
  · exact Pipeline.withArrays_of_ne win c V A r fun w e => hw ⟨w, e⟩

/-- No host stretch writes `r`, and in each region it is no output's array. -/
abbrev Kept (r : Ref sig .tc) : Prop :=
  r ∉ hostOps0_W ∧ r ∉ hostOps0_1_W ∧ r ∉ hostOps0_2_W ∧ r ∉ hostOps3_W
  ∧ (∀ w, Pipeline.arrRef spec0 w = r → (cfg0.win w).isOut = false)
  ∧ (∀ w, Pipeline.arrRef spec1 w = r → (cfg1.win w).isOut = false)
  ∧ (∀ w, Pipeline.arrRef spec2 w = r → (cfg2.win w).isOut = false)

/-- Such a buffer ends as launched: an input's array is left as found. -/
theorem W7_kept (c : Dev nD) (r : Ref sig .tc) (h : Kept r) : W7 m c (Proc.devRef .tc r) = m ((c : Thread nD τ).loc r) := by
  obtain ⟨h0, h1, h2, h3, k0, k1, k2⟩ := h
  exact (StableHlo.after_of_writes_sub hostOps3 _ hostOps3_writes h3).trans <|
    (withArrays_keep spec2 launch2.win.arr_inj c _ _ r fun w e => ((dat2 (V5 m) c).arrAt_in w (k2 w e) _).trans (A_eq2 (V5 m) c w)).trans <|
    (withArrays_keep spec1 launch1.win.arr_inj c _ _ r fun w e => ((dat1 (V4 m) c).arrAt_in w (k1 w e) _).trans (A_eq1 (V4 m) c w)).trans <|
    (withArrays_keep spec0 launch0.win.arr_inj c _ _ r fun w e => ((dat0 (V3 m) c).arrAt_in w (k0 w e) _).trans (A_eq0 (V3 m) c w)).trans <|
    W3_of m c r h0 h1 h2

/-- The run ends with the three results at the last boundary's contents and the fourteen arguments as launched. -/
theorem run_all : θ_run defs (onTc (τ := τ) (main (F := F))) ⟨m, fun _ => 0, ρ⟩ (fun r => ∀ c : Dev nD,
      r.2.mem ((c.tc : Thread nD τ).loc main_v61) = W7 m c (Proc.devRef .tc main_v61)
      ∧ r.2.mem ((c.tc : Thread nD τ).loc main_v63) = W7 m c (Proc.devRef .tc main_v63)
      ∧ r.2.mem ((c.tc : Thread nD τ).loc main_v65) = W7 m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    have a (b : Ref sig .tc) (hs : ¬ (Proc.devRef .tc b : DevRef τ sig).isScoped) (hk : Kept b) :
        r.2.mem ((c.tc : Thread nD τ).loc b) = m ((c.tc : Thread nD τ).loc b) := (h c _ (mem_uc b hs)).trans (W7_kept m c b hk)
    ⟨h c _ (mem_uc main_v61 (by decide)), h c _ (mem_uc main_v63 (by decide)), h c _ (mem_uc main_v65 (by decide)),
     a main_arg0 (by decide) (by decide),
     a main_arg1 (by decide) (by decide),
     a main_arg2 (by decide) (by decide),
     a main_arg3 (by decide) (by decide),
     a main_arg4 (by decide) (by decide),
     a main_arg5 (by decide) (by decide),
     a main_arg6 (by decide) (by decide),
     a main_arg7 (by decide) (by decide),
     a main_arg8 (by decide) (by decide),
     a main_arg9 (by decide) (by decide),
     a main_arg10 (by decide) (by decide),
     a main_arg11 (by decide) (by decide),
     a main_arg12 (by decide) (by decide),
     a main_arg13 (by decide) (by decide)⟩)
    (run_main m ρ)

end Cert.KernelIdeal.Hand

end
-- ==== Proof.Spec.lean ====
import Idealize.ShloMosaic.PureOps.Ideal

noncomputable section

namespace Cert.Spec

open Idealize.ShloMosaic

structure Inp where
  x : Fin 10000 → Fin 128 → EReal
  W1 : Fin 128 → Fin 128 → EReal
  b1 : Fin 128 → EReal
  W2 : Fin 128 → Fin 128 → EReal
  b2 : Fin 128 → EReal
  Wlin : Fin 128 → Fin 16 → EReal
  blin : Fin 16 → EReal
  Wd2 : Fin 128 → EReal
  bd2 : EReal
  Wd3 : Fin 128 → EReal
  bd3 : EReal
  Wdown : Fin 128 → Fin 128 → EReal
  bdown : Fin 128 → EReal
  src : Fin 650000 → ℕ
  dst : Fin 650000 → ℕ

variable (I : Inp)

def deg (i : ℕ) : EReal := ∑ e : Fin 650000, if I.dst e = i then (1 : EReal) else 0

def dis (i : ℕ) : EReal := if 0 < deg I i then Ideal.rsqrt (max (deg I i) 1) else 0

def nrm (e : Fin 650000) : EReal := dis I (I.src e) * dis I (I.dst e)

def xpad (r : ℕ) (k : Fin 128) : EReal := if h : r < 10000 then I.x ⟨r, h⟩ k else 0

def xw (r : ℕ) (j : Fin 128) : EReal := ∑ k : Fin 128, xpad I r k * I.W1 k j

def orig (r : ℕ) (j : Fin 128) : EReal := (∑ k : Fin 128, xpad I r k * I.Wdown k j) + I.bdown j

def lsm (v : Fin 16 → EReal) (q : Fin 16) : EReal :=
  (v q - Finset.univ.sup v) - Ideal.log (∑ q' : Fin 16, Ideal.exp (v q' - Finset.univ.sup v))

def res1 (h : Fin 128 → EReal) (q : Fin 16) : EReal := lsm (fun q' => (∑ k : Fin 128, h k * I.Wlin k q') + I.blin q') q
def res2 (h : Fin 128 → EReal) : EReal := (∑ k : Fin 128, h k * I.Wd2 k) + I.bd2
def res3 (h : Fin 128 → EReal) : EReal := (∑ k : Fin 128, h k * I.Wd3 k) + I.bd3

def adj (i c : ℕ) : EReal := ∑ e : Fin 650000, if I.dst e = i ∧ I.src e = c then nrm I e else 0

def blockAgg (y : ℕ → Fin 128 → EReal) (r : ℕ) (j : Fin 128) : EReal :=
  ∑ kb : Fin 4, ∑ cc : Fin 2560, adj I r (2560 * kb.val + cc.val) * y (2560 * kb.val + cc.val) j

def xw2K (r : ℕ) (j : Fin 128) : EReal := ∑ k : Fin 128, max (blockAgg I (xw I) r k + I.b1 k) 0 * I.W2 k j

def hK (r : ℕ) (j : Fin 128) : EReal := (blockAgg I (xw2K I) r j + I.b2 j) + orig I r j

def edgeAgg (y : ℕ → Fin 128 → EReal) (i : ℕ) (j : Fin 128) : EReal :=
  ∑ e : Fin 650000, if I.dst e = i then y (I.src e) j * nrm I e else 0

def xw2R (i : ℕ) (j : Fin 128) : EReal := ∑ k : Fin 128, max (edgeAgg I (xw I) i k + I.b1 k) 0 * I.W2 k j

def hR (i : ℕ) (j : Fin 128) : EReal := (edgeAgg I (xw2R I) i j + I.b2 j) + orig I i j

structure Inp.Good : Prop where
  x_real : ∀ i k, ∃ r : ℝ, I.x i k = (r : EReal)
  W1_real : ∀ k j, ∃ r : ℝ, I.W1 k j = (r : EReal)
  b1_real : ∀ j, ∃ r : ℝ, I.b1 j = (r : EReal)
  W2_real : ∀ k j, ∃ r : ℝ, I.W2 k j = (r : EReal)
  b2_real : ∀ j, ∃ r : ℝ, I.b2 j = (r : EReal)
  Wdown_real : ∀ k j, ∃ r : ℝ, I.Wdown k j = (r : EReal)
  bdown_real : ∀ j, ∃ r : ℝ, I.bdown j = (r : EReal)
  src_lt : ∀ e, I.src e < 10000
  dst_lt : ∀ e, I.dst e < 10000

end Cert.Spec

end
-- ==== Proof.SpecInp.lean ====
import proofs.«421950_j9620726743150_3_alg».proof.Proof.Spec
import Idealize.ShloMosaic.Lib.ValueIdx

noncomputable section

namespace Cert.Spec

open Idealize.ShloMosaic Idealize.ShloMosaic.ValueIdx

def nodeOf (w : BitVec 32) : ℕ := w.toInt.toNat

def endOf (ei : (⟨2, ![2, 640000]⟩ : Shape).Idx → BitVec 32) (row : Fin 2) (e : Fin 650000) : ℕ :=
  if h : e.val < 640000 then nodeOf (ei (ix2 row ⟨e.val, h⟩)) else e.val - 640000

def mkInp (a0 : (⟨2, ![10000, 128]⟩ : Shape).Idx → EReal) (a1 : (⟨2, ![2, 640000]⟩ : Shape).Idx → BitVec 32)
    (a2 : (⟨2, ![128, 128]⟩ : Shape).Idx → EReal) (a3 : (⟨1, ![128]⟩ : Shape).Idx → EReal)
    (a4 : (⟨2, ![128, 128]⟩ : Shape).Idx → EReal) (a5 : (⟨1, ![128]⟩ : Shape).Idx → EReal)
    (a6 : (⟨2, ![128, 16]⟩ : Shape).Idx → EReal) (a7 : (⟨1, ![16]⟩ : Shape).Idx → EReal)
    (a8 : (⟨2, ![128, 1]⟩ : Shape).Idx → EReal) (a9 : (⟨1, ![1]⟩ : Shape).Idx → EReal)
    (a10 : (⟨2, ![128, 1]⟩ : Shape).Idx → EReal) (a11 : (⟨1, ![1]⟩ : Shape).Idx → EReal)
    (a12 : (⟨2, ![128, 128]⟩ : Shape).Idx → EReal) (a13 : (⟨1, ![128]⟩ : Shape).Idx → EReal) : Inp where
  x i k := a0 (ix2 i k)
  W1 k j := a2 (ix2 k j)
  b1 j := a3 (ix1 j)
  W2 k j := a4 (ix2 k j)
  b2 j := a5 (ix1 j)
  Wlin k q := a6 (ix2 k q)
  blin q := a7 (ix1 q)
  Wd2 k := a8 (ix2 k (0 : Fin 1))
  bd2 := a9 (ix1 (0 : Fin 1))
  Wd3 k := a10 (ix2 k (0 : Fin 1))
  bd3 := a11 (ix1 (0 : Fin 1))
  Wdown k j := a12 (ix2 k j)
  bdown j := a13 (ix1 j)
  src := endOf a1 0
  dst := endOf a1 1

end Cert.Spec

end
-- ==== Proof.Inputs.lean ====
import proofs.«421950_j9620726743150_3_alg».proof.Defs
import proofs.«421950_j9620726743150_3_alg».proof.Proof.SpecInp

noncomputable section

open Idealize.ShloMosaic Idealize.SL.Sem

namespace Cert.KernelIdeal.Val

open Cert.KernelIdeal

noncomputable def inpK (m : (ℓ : Loc nD τ sig) → Buf (Elt Ideal) ℓ) (c : Dev nD) : Cert.Spec.Inp :=
  Cert.Spec.mkInp (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

end Cert.KernelIdeal.Val

namespace Cert.ReferenceIdeal.Val

open Cert.ReferenceIdeal

noncomputable def inpR (m : (ℓ : Loc nD τ sig) → Buf (Elt Ideal) ℓ) (c : Dev nD) : Cert.Spec.Inp :=
  Cert.Spec.mkInp (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

end Cert.ReferenceIdeal.Val

end
-- ==== Proof.LibScatterAddAt.lean ====
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · next hh =>
      have ha := congrArg (fun f : s.Idx => (f a).val) (Option.some.inj h)
      have := hh a
      simp only at ha
      omega
    · cases h
  · intro h
    rw [dif_pos fun a => by have := h a; have := (i a).isLt; omega]
    refine congrArg some (funext fun a => Fin.ext ?_)
    have := h a
    show (d.start j idx a + d.window j a).toNat = (i a).val
    omega

/-- The accumulating scatter at `i`: the operand's element plus every update that lands on `i`. -/
theorem hostScatterAdd_apply {s si u : Shape} (d : ScatterDims s si u) {w : Nat} (x : s.Idx → EReal) (idx : IVec si w)
    (upd : u.Idx → EReal) (i : s.Idx) :
    Ideal.hostScatterAdd d x idx upd i = x i + ∑ j, if d.resultIdx? j idx = some i then upd j else 0 := by
  unfold Ideal.hostScatterAdd; rw [Finset.sum_filter]

theorem sum_idx1 {M : Type*} [AddCommMonoid M] {n : Nat} (f : (⟨1, ![n]⟩ : Shape).Idx → M) :
    ∑ i, f i = ∑ e : Fin n, f (ix1 e) := by
  rw [← Equiv.sum_comp idxEquiv1.symm f]; rfl

theorem toInt_congr {si : Shape} {w : Nat} (idx : IVec si w) {k k' : si.Idx} (h : ∀ b, (k b).val = (k' b).val) :
    (idx k).toInt = (idx k').toInt := congrArg (fun k => (idx k).toInt) (funext fun b => Fin.ext (h b))

variable {N D M n w : Nat}

/-- Values added into a vector at one index word each: entry `i` gains the values whose word, read signed, is `i`. -/
theorem vec_apply (wf : ScatterDims.WF ⟨1, ![N]⟩ ⟨2, ![n, 1]⟩ ⟨1, ![n]⟩ [] [0] [0] 1)
    (x : (⟨1, ![N]⟩ : Shape).Idx → EReal) (idx : IVec ⟨2, ![n, 1]⟩ w) (upd : (⟨1, ![n]⟩ : Shape).Idx → EReal) (i : Fin N) :
    Ideal.hostScatterAdd ⟨[], [0], [0], 1, wf⟩ x idx upd (ix1 i)
      = x (ix1 i) + ∑ e : Fin n, if (idx (ix2 e (0 : Fin 1))).toInt = (i.val : ℤ) then upd (ix1 e) else 0 := by
  rw [hostScatterAdd_apply, sum_idx1]
  refine congrArg _ (Finset.sum_congr rfl fun e _ => if_congr ?_ rfl rfl)
  rw [resultIdx?_eq_some_iff, Fin.forall_fin_one]
  have hs : (ScatterDims.mk [] [0] [0] 1 wf).start (ix1 e) idx 0 = (idx (ix2 e (0 : Fin 1))).toInt :=
    toInt_congr idx (Fin.forall_fin_two.2 ⟨rfl, rfl⟩)
  show _ + ((0 : ℕ) : ℤ) = _ ↔ _
  rw [hs, Nat.cast_zero, add_zero]

/-- Rows added into a table at one index word each: entry `(i, j)` gains entry `j` of the rows whose word is `i`. -/
theorem rows_apply (wf : ScatterDims.WF ⟨2, ![N, D]⟩ ⟨2, ![n, 1]⟩ ⟨2, ![n, D]⟩ [1] [0] [0] 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd ⟨[1], [0], [0], 1, wf⟩ x idx upd (ix2 i j)
      = x (ix2 i j) + ∑ e : Fin n, if (idx (ix2 e (0 : Fin 1))).toInt = (i.val : ℤ) then upd (ix2 e j) else 0 := by
  rw [hostScatterAdd_apply, sum_idx2]
  refine congrArg _ (Finset.sum_congr rfl fun e _ => ?_)
  have key : ∀ k : Fin D, (ScatterDims.mk [1] [0] [0] 1 wf).resultIdx? (ix2 e k) idx = some (ix2 i j)
      ↔ k = j ∧ (idx (ix2 e (0 : Fin 1))).toInt = (i.val : ℤ) := fun k => by
    rw [resultIdx?_eq_some_iff, Fin.forall_fin_two]
    have hs : (ScatterDims.mk [1] [0] [0] 1 wf).start (ix2 e k) idx 0 = (idx (ix2 e (0 : Fin 1))).toInt :=
      toInt_congr idx (Fin.forall_fin_two.2 ⟨rfl, rfl⟩)
    show _ + ((0 : ℕ) : ℤ) = (i.val : ℤ) ∧ (0 : ℤ) + (k.val : ℤ) = (j.val : ℤ) ↔ _
    rw [hs, Nat.cast_zero, add_zero, zero_add, Nat.cast_inj, Fin.val_inj, and_comm]
  simp only [key, ite_and, Finset.sum_ite_eq', Finset.mem_univ, if_true]

/-- Values added into a matrix at a pair of index words each: entry `(i, c)` gains the values whose pair is `(i, c)`. -/
theorem points_apply (wf : ScatterDims.WF ⟨2, ![N, M]⟩ ⟨2, ![n, 2]⟩ ⟨1, ![n]⟩ [] [0, 1] [0, 1] 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd ⟨[], [0, 1], [0, 1], 1, wf⟩ x idx upd (ix2 i c)
      = x (ix2 i c) + ∑ e : Fin n,
          if (idx (ix2 e 0)).toInt = (i.val : ℤ) ∧ (idx (ix2 e 1)).toInt = (c.val : ℤ) then upd (ix1 e) else 0 := by
  rw [hostScatterAdd_apply, sum_idx1]
  refine congrArg _ (Finset.sum_congr rfl fun e _ => if_congr ?_ rfl rfl)
  rw [resultIdx?_eq_some_iff, Fin.forall_fin_two]
  have h0 : (ScatterDims.mk [] [0, 1] [0, 1] 1 wf).start (ix1 e) idx 0 = (idx (ix2 e 0)).toInt :=
    toInt_congr idx (Fin.forall_fin_two.2 ⟨rfl, rfl⟩)
  have h1 : (ScatterDims.mk [] [0, 1] [0, 1] 1 wf).start (ix1 e) idx 1 = (idx (ix2 e 1)).toInt :=
    toInt_congr idx (Fin.forall_fin_two.2 ⟨rfl, rfl⟩)
  show _ + ((0 : ℕ) : ℤ) = _ ∧ _ + ((0 : ℕ) : ℤ) = _ ↔ _
  rw [h0, h1, Nat.cast_zero, add_zero, add_zero]

end Cert.LibScatterAddAt

end
-- ==== Proof.EdgeOps.lean ====
import proofs.«421950_j9620726743150_3_alg».proof.Proof.LibScatterAddAt
import Idealize.ShloMosaic.Lib.Pipeline.Value

noncomputable section

open scoped BigOperators

namespace Cert.EdgeOps

open Idealize.ShloMosaic Idealize.ShloMosaic.ValueIdx

/-- Two vectors end to end, read below the first one's length: the first vector there. -/
theorem concat2_left {α : Type} {n₁ n₂ n : Nat}
    (h : Shape.Concatenates [(⟨1, ![n₁]⟩ : Shape), ⟨1, ![n₂]⟩] ⟨1, ![n]⟩ 0)
    (a : (⟨1, ![n₁]⟩ : Shape).Idx → α) (b : (⟨1, ![n₂]⟩ : Shape).Idx → α) (e : Fin n) (he : e.val < n₁) :
    concatenate (⟨1, ![n]⟩ : Shape) 0 [⟨⟨1, ![n₁]⟩, a⟩, ⟨⟨1, ![n₂]⟩, b⟩] h (ix1 e) = a (ix1 ⟨e.val, he⟩) :=
  concatenate_pair_apply_left 0 a b h (ix1 e) rfl (ix1 ⟨e.val, he⟩) (fun c => by match c with | ⟨0, _⟩ => rfl)

theorem concat2_right {α : Type} {n₁ n₂ n : Nat}
    (h : Shape.Concatenates [(⟨1, ![n₁]⟩ : Shape), ⟨1, ![n₂]⟩] ⟨1, ![n]⟩ 0)
    (a : (⟨1, ![n₁]⟩ : Shape).Idx → α) (b : (⟨1, ![n₂]⟩ : Shape).Idx → α) (e : Fin n) (he : n₁ ≤ e.val)
    (he' : e.val - n₁ < n₂) :
    concatenate (⟨1, ![n]⟩ : Shape) 0 [⟨⟨1, ![n₁]⟩, a⟩, ⟨⟨1, ![n₂]⟩, b⟩] h (ix1 e) = b (ix1 ⟨e.val - n₁, he'⟩) :=
  concatenate_pair_apply_right 0 a b h (ix1 e) rfl rfl (ix1 ⟨e.val - n₁, he'⟩)
    (fun c hc => absurd (Subsingleton.elim _ _) hc)
    (by show e.val - n₁ + n₁ = e.val; omega)

abbrev segDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

theorem segSum_apply {N n w : Nat} (wf : ScatterDims.WF ⟨1, ![N]⟩ ⟨2, ![n, 1]⟩ ⟨1, ![n]⟩ [] [0] [0] 1)
    (x : (⟨1, ![N]⟩ : Shape).Idx → EReal) (idx : IVec ⟨2, ![n, 1]⟩ w) (upd : (⟨1, ![n]⟩ : Shape).Idx → EReal)
    (i : Fin N) :
    Ideal.hostScatterAdd (segDims N n wf) x idx upd (ix1 i)
      = x (ix1 i) + ∑ e : Fin n, if (idx (ix2 e (0 : Fin 1))).toInt = (i.val : ℤ) then upd (ix1 e) else 0 :=
  Cert.LibScatterAddAt.vec_apply wf x idx upd i

abbrev rowSegDims (N D n : Nat) (wf : ScatterDims.WF ⟨2, ![N, D]⟩ ⟨2, ![n, 1]⟩ ⟨2, ![n, D]⟩ [1] [0] [0] 1) :
    ScatterDims ⟨2, ![N, D]⟩ ⟨2, ![n, 1]⟩ ⟨2, ![n, D]⟩ where
  updateWindowDims := [1]
  insertedWindowDims := [0]
  scatterDimsToOperandDims := [0]
  indexVectorDim := 1
  wf := wf

theorem segSumRows_apply {N D n w : Nat}
    (wf : ScatterDims.WF ⟨2, ![N, D]⟩ ⟨2, ![n, 1]⟩ ⟨2, ![n, D]⟩ [1] [0] [0] 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd (rowSegDims N D n wf) x idx upd (ix2 i j)
      = x (ix2 i j) + ∑ e : Fin n, if (idx (ix2 e (0 : Fin 1))).toInt = (i.val : ℤ) then upd (ix2 e j) else 0 :=
  Cert.LibScatterAddAt.rows_apply wf x idx upd i j

end Cert.EdgeOps

end
-- ==== Proof.KIHostNorm.lean ====
import proofs.«421950_j9620726743150_3_alg».proof.Proof.Inputs
import proofs.«421950_j9620726743150_3_alg».proof.Proof.EdgeOps
import proofs.«421950_j9620726743150_3_alg».proof.Proof.Gen.KernelIdeal.Regions
import Idealize.ShloMosaic.Lib.StableHlo.Run
import Idealize.ShloMosaic.Lib.StableHlo.Predicate
import Idealize.ShloMosaic.Lib.ValueLayout
import Idealize.ShloMosaic.Lib.IdealHost

noncomputable section

open scoped BigOperators

namespace Cert.KernelIdeal.Val

open Cert.KernelIdeal Cert.KernelIdeal.Gen Idealize.ShloMosaic Idealize.ShloMosaic.ValueIdx Idealize.SL.Sem
open Idealize.ShloMosaic.StableHlo (after_nil after_cons)

/-- The buffer contents after the three host stretches. -/
abbrev H3 (m : (ℓ : Loc nD τ sig) → Buf (Elt Ideal) ℓ) (c : Dev nD) : Valuation τ sig (Elt Ideal) :=
  StableHlo.after hostOps0_2 (StableHlo.after hostOps0_1 (StableHlo.after hostOps0 (fun b => m ((c : Dev nD), b))))

abbrev InRange (m : (ℓ : Loc nD τ sig) → Buf (Elt Ideal) ℓ) (c : Dev nD) : Prop := ∀ (row : Fin 2) (e : Fin 640000),
    0 ≤ ((m ((c.tc : Thread nD τ).loc main_arg1) : (⟨2, ![2, 640000]⟩ : Shape).Idx → BitVec 32) (ix2 row e)).toInt
    ∧ ((m ((c.tc : Thread nD τ).loc main_arg1) : (⟨2, ![2, 640000]⟩ : Shape).Idx → BitVec 32) (ix2 row e)).toInt < 10000

def endsT (off : Fin 2 → Nat) (hs : S2x640000.Slices off S1x640000) (a1 : IVec S2x640000 32) : IVec S650000 32 :=
  concatenate S650000 0
    [⟨S640000, shapeCast S640000 (extractStridedSlice S1x640000 off a1 hs) shapeCasts_S1x640000_S640000⟩,
      ⟨S10000, iotaInDim S10000 32 0⟩] concatenates_S640000_S10000_S650000_d0

abbrev srcT (a1 : IVec S2x640000 32) : IVec S650000 32 := endsT ![0, 0] slices_S2x640000_S1x640000_0_0 a1
abbrev dstT (a1 : IVec S2x640000 32) : IVec S650000 32 := endsT ![1, 0] slices_S2x640000_S1x640000_1_0 a1

/-- The in-degrees: ones added at the destinations into zeros. -/
def degOf (dstw : IVec S650000 32) : FVec Ideal S10000 .f32 :=
  Host.scatterAdd (F := Ideal) scatter_S10000_S650000x1_S650000_n_0_0_1
    (broadcastInDim S10000 ![] bcast_S_S10000 (constant (F := Ideal) S_ .f32 0x00000000#32))
    (broadcastInDim S650000x1 ![0] bcast_S650000_S650000x1_0 dstw)
    (broadcastInDim S650000 ![] bcast_S_S650000 (constant (F := Ideal) S_ .f32 0x3F800000#32))

def posOf (d : FVec Ideal S10000 .f32) : IVec S10000 1 :=
  cmpf .ogt d (broadcastInDim S10000 ![] bcast_S_S10000 (constant (F := Ideal) S_ .f32 0x00000000#32))
def rsqOf (d : FVec Ideal S10000 .f32) : FVec Ideal S10000 .f32 :=
  Host.rsqrt (maximumf d (broadcastInDim S10000 ![] bcast_S_S10000 (constant (F := Ideal) S_ .f32 0x3F800000#32)))

def disOf (d : FVec Ideal S10000 .f32) : FVec Ideal S10000 .f32 :=
  select (posOf d) (rsqOf d) (broadcastInDim S10000 ![] bcast_S_S10000 (id (constant (F := Ideal) S_ .f32 0x00000000#32)))

def wrapW (n : BitVec 32) (x : IVec S650000 32) : IVec S650000 32 :=
  select (cmpi .slt x (broadcastInDim S650000 ![] bcast_S_S650000 (constantI S_ 32 0#32)))
    (addi x (broadcastInDim S650000 ![] bcast_S_S650000 (constantI S_ 32 n))) x

def takeT (t : FVec Ideal S10000 .f32) (x : IVec S650000 32) : FVec Ideal S650000 .f32 :=
  Host.gather gather_S10000_S650000x1_S650000_n_0_n_n_0_1_1 t
    (broadcastInDim S650000x1 ![0] bcast_S650000_S650000x1_0 (wrapW 10000#32 x))

section Terms
open Idealize.ShloMosaic.StableHlo

theorem first_v3 (V : Valuation τ sig (Elt Ideal)) :
    StableHlo.after hostOps0 V (Proc.devRef .tc main_v3) = srcT (V (Proc.devRef .tc main_arg1)) := by
  after_results; rfl
theorem first_v6 (V : Valuation τ sig (Elt Ideal)) :
    StableHlo.after hostOps0 V (Proc.devRef .tc main_v6) = dstT (V (Proc.devRef .tc main_arg1)) := by
  after_results; rfl
theorem second_v16 (V : Valuation τ sig (Elt Ideal)) :
    StableHlo.after hostOps0_1 (StableHlo.after hostOps0 V) (Proc.devRef .tc main_v16)
      = disOf (degOf (dstT (V (Proc.devRef .tc main_arg1)))) := by
  have e : ∀ X : Valuation τ sig (Elt Ideal), StableHlo.after hostOps0_1 X (Proc.devRef .tc main_v16)
      = select (X (Proc.devRef .tc main_v12)) (X (Proc.devRef .tc main_v15))
          (broadcastInDim S10000 ![] bcast_S_S10000 (id (X (Proc.devRef .tc main_cst_3)))) := fun X => by
    after_results; rfl
  have e12 : StableHlo.after hostOps0 V (Proc.devRef .tc main_v12) = posOf (degOf (dstT (V (Proc.devRef .tc main_arg1)))) := by
    after_results; rfl
  have e15 : StableHlo.after hostOps0 V (Proc.devRef .tc main_v15) = rsqOf (degOf (dstT (V (Proc.devRef .tc main_arg1)))) := by
    after_results; rfl
  have e3 : StableHlo.after hostOps0 V (Proc.devRef .tc main_cst_3) = constant (F := Ideal) S_ .f32 0x00000000#32 := by
    after_results
  rw [e, e12, e15, e3]; rfl
set_option maxHeartbeats 2000000 in
theorem third_v31 (X : Valuation τ sig (Elt Ideal)) :
    StableHlo.after hostOps0_2 X (Proc.devRef .tc main_v31)
      = mulf (takeT (X (Proc.devRef .tc main_v16)) (X (Proc.devRef .tc main_v3)))
          (takeT (X (Proc.devRef .tc main_v16)) (X (Proc.devRef .tc main_v6))) := by
  after_results_simp; rfl

end Terms

variable (m : (ℓ : Loc nD τ sig) → Buf (Elt Ideal) ℓ) (c : Dev nD)

theorem V2_v3 : StableHlo.after hostOps0_1 (StableHlo.after hostOps0 fun b => m ((c : Dev nD), b)) (Proc.devRef .tc main_v3)
    = srcT (m ((c.tc : Thread nD τ).loc main_arg1)) := (V2_of m c main_v3 (by decide)).trans (first_v3 _)
theorem V2_v6 : StableHlo.after hostOps0_1 (StableHlo.after hostOps0 fun b => m ((c : Dev nD), b)) (Proc.devRef .tc main_v6)
    = dstT (m ((c.tc : Thread nD τ).loc main_arg1)) := (V2_of m c main_v6 (by decide)).trans (first_v6 _)
theorem H3_v31_term : H3 m c (Proc.devRef .tc main_v31)
    = mulf (takeT (disOf (degOf (dstT (m ((c.tc : Thread nD τ).loc main_arg1))))) (srcT (m ((c.tc : Thread nD τ).loc main_arg1))))
        (takeT (disOf (degOf (dstT (m ((c.tc : Thread nD τ).loc main_arg1))))) (dstT (m ((c.tc : Thread nD τ).loc main_arg1)))) := by
  unfold H3
  rw [third_v31, second_v16, V2_v3, V2_v6]

theorem column_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  refine broadcastInDim_apply _ h v _ (ix1 p) fun a => ?_
  match a with
  | ⟨0, _⟩ =>
    show p.val = if n = 1 then 0 else p.val
    split
    · have := p.isLt; omega
    · rfl

theorem endsT_toInt (off : Fin 2 → Nat) (hs : S2x640000.Slices off S1x640000) (a1 : IVec S2x640000 32) (row : Fin 2)
    (h0 : off 0 = row.val) (h1 : off 1 = 0)
    (hr : ∀ (row : Fin 2) (e : Fin 640000), 0 ≤ (a1 (ix2 row e)).toInt ∧ (a1 (ix2 row e)).toInt < 10000)
    (e : Fin 650000) :
    (endsT off hs a1 (ix1 e)).toInt = (Cert.Spec.endOf a1 row e : ℤ) ∧ Cert.Spec.endOf a1 row e < 10000 := by
  unfold endsT Cert.Spec.endOf
  split
  · rename_i h
    rw [(Cert.EdgeOps.concat2_left _ _ _ e h).trans ((shapeCast_1a_a_apply _ _ ⟨e.val, h⟩).trans
      (extractStridedSlice_apply off a1 hs (ix2 (0 : Fin 1) ⟨e.val, h⟩) (ix2 row ⟨e.val, h⟩) fun a => by
        match a with
        | ⟨0, _⟩ => show row.val = off 0 + 0; omega
        | ⟨1, _⟩ => show e.val = off 1 + e.val; omega))]
    have := hr row ⟨e.val, h⟩
    unfold Cert.Spec.nodeOf
    omega
  · have he := e.isLt
    rw [Cert.EdgeOps.concat2_right _ _ _ e (by omega) (by omega)]
    exact ⟨StableHlo.Predicate.toInt_ofNat_small (e.val - 640000) (by omega), by omega⟩

/-- The program's vector scatter at the exact values, read at an entry. -/
theorem deg_at (x : FVec Ideal S10000 .f32) (idx : IVec S650000x1 32) (upd : FVec Ideal S650000 .f32) (i : Fin 10000) :
    Host.scatterAdd (F := Ideal) scatter_S10000_S650000x1_S650000_n_0_0_1 x idx upd (ix1 i)
      = x (ix1 i) + ∑ e : Fin 650000, if (idx (ix2 e (0 : Fin 1))).toInt = (i.val : ℤ) then upd (ix1 e) else 0 :=
  Cert.LibScatterAddAt.vec_apply _ x idx upd i

theorem degOf_apply (dstw : IVec S650000 32) (dst : Fin 650000 → ℕ)
    (hd : ∀ e, (dstw (ix1 e)).toInt = (dst e : ℤ)) (i : Fin 10000) :
    degOf dstw (ix1 i) = ∑ e : Fin 650000, if dst e = i.val then (1 : EReal) else 0 := by
  unfold degOf
  refine (deg_at _ _ _ i).trans ?_
  rw [show (broadcastInDim S10000 ![] bcast_S_S10000 (constant (F := Ideal) S_ .f32 0x00000000#32)) (ix1 i) = 0
    from Ideal.ofBits_zero_f32, zero_add]
  refine Finset.sum_congr rfl fun e _ => ?_
  rw [column_apply, hd e,
    show (broadcastInDim S650000 ![] bcast_S_S650000 (constant (F := Ideal) S_ .f32 0x3F800000#32)) (ix1 e) = 1
      from Ideal.ofBits_one_f32]
  exact if_congr Nat.cast_inj rfl rfl

theorem disOf_apply (d : FVec Ideal S10000 .f32) (i : Fin 10000) :
    disOf d (ix1 i) = if 0 < d (ix1 i) then Ideal.rsqrt (max (d (ix1 i)) 1) else 0 := by
  show Scalar.select (Ideal.cmp .ogt (d (ix1 i)) (Ideal.ofBits .f32 0x00000000#32))
      (Ideal.rsqrt (max (d (ix1 i)) (Ideal.ofBits .f32 0x3F800000#32))) (Ideal.ofBits .f32 0x00000000#32) = _
  rw [Ideal.ofBits_zero_f32, Ideal.ofBits_one_f32]
  unfold Ideal.cmp
  by_cases h : 0 < d (ix1 i)
  · simp only [h, decide_true, if_true]; exact select_one _ _
  · simp only [h, decide_false, if_false]; exact select_zero _ _

theorem wrapW_apply (n : BitVec 32) (x : IVec S650000 32) (j : S650000.Idx) (h : 0 ≤ (x j).toInt) : wrapW n x j = x j := by
  show Scalar.select (IntOp.cmpi .slt (x j) 0#32) (IntOp.addi (x j) n) (x j) = _
  have hc : IntOp.cmpi .slt (x j) 0#32 = 0#1 := eq_zero_of_ne_one fun h1 => by
    rw [IntOp.cmpi_slt] at h1
    have z : (0#32 : BitVec 32).toInt = 0 := by decide
    omega
  rw [hc, select_zero]

theorem takeT_apply (t : FVec Ideal S10000 .f32) (x : IVec S650000 32) (e : Fin 650000) (n : ℕ) (hn : n < 10000)
    (hx : (x (ix1 e)).toInt = (n : ℤ)) : takeT t x (ix1 e) = t (ix1 ⟨n, hn⟩) := by
  unfold takeT
  have hg := StableHlo.Predicate.gather_take gather_S10000_S650000x1_S650000_n_0_n_n_0_1_1 rfl rfl rfl rfl t
    (broadcastInDim S650000x1 ![0] bcast_S650000_S650000x1_0 (wrapW 10000#32 x)) e (by decide)
  rw [show (Shape.Idx.ofFin e : S650000.Idx) = ix1 e from (eq_ix1 _)] at hg
  rw [hg]
  refine congrArg t (funext fun a => Fin.ext ?_)
  obtain rfl : a = 0 := Subsingleton.elim _ _
  show min ((broadcastInDim S650000x1 ![0] bcast_S650000_S650000x1_0 (wrapW 10000#32 x)) (StableHlo.Predicate.ixP e)).toInt.toNat (10000 - 1) = n
  rw [show (StableHlo.Predicate.ixP e : S650000x1.Idx) = ix2 e (0 : Fin 1) from eq_ix2 _, column_apply,
    wrapW_apply _ x _ (by omega), hx]
  omega

/-- The endpoint vectors read signed are the specification's sources and destinations, node numbers. -/
theorem ends_spec (hr : InRange m c) (e : Fin 650000) :
    ((srcT (m ((c.tc : Thread nD τ).loc main_arg1)) (ix1 e)).toInt = ((inpK m c).src e : ℤ) ∧ (inpK m c).src e < 10000)
    ∧ ((dstT (m ((c.tc : Thread nD τ).loc main_arg1)) (ix1 e)).toInt = ((inpK m c).dst e : ℤ) ∧ (inpK m c).dst e < 10000) :=
  ⟨endsT_toInt ![0, 0] slices_S2x640000_S1x640000_0_0 _ 0 rfl rfl hr e,
    endsT_toInt ![1, 0] slices_S2x640000_S1x640000_1_0 _ 1 rfl rfl hr e⟩

theorem dis_spec (hr : InRange m c) (i : Fin 10000) :
    disOf (degOf (dstT (m ((c.tc : Thread nD τ).loc main_arg1)))) (ix1 i) = Cert.Spec.dis (inpK m c) i.val := by
  have h := disOf_apply (degOf (dstT (m ((c.tc : Thread nD τ).loc main_arg1)))) i
  rw [show degOf (dstT (m ((c.tc : Thread nD τ).loc main_arg1))) (ix1 i) = Cert.Spec.deg (inpK m c) i.val from
    degOf_apply _ (inpK m c).dst (fun e => (ends_spec m c hr e).2.1) i] at h
  exact h

/-- A product of two table reads at positions that are node numbers. -/
theorem nrm_apply (t : FVec Ideal S10000 .f32) (s d : IVec S650000 32) (e : Fin 650000) (ns nd : ℕ)
    (hns : ns < 10000) (hnd : nd < 10000) (hs : (s (ix1 e)).toInt = (ns : ℤ)) (hd : (d (ix1 e)).toInt = (nd : ℤ)) :
    mulf (takeT t s) (takeT t d) (ix1 e) = t (ix1 ⟨ns, hns⟩) * t (ix1 ⟨nd, hnd⟩) := by
  show takeT t s (ix1 e) * takeT t d (ix1 e) = _
  rw [takeT_apply t s e ns hns hs, takeT_apply t d e nd hnd hd]

theorem H3_nrm (hr : InRange m c) (e : Fin 650000) :
    (H3 m c (Proc.devRef .tc main_v31) : S650000.Idx → EReal) (ix1 e) = Cert.Spec.nrm (inpK m c) e := by
  obtain ⟨⟨hs, hs'⟩, hd, hd'⟩ := ends_spec m c hr e
  rw [H3_v31_term, nrm_apply _ _ _ e _ _ hs' hd' hs hd, dis_spec m c hr, dis_spec m c hr]
  rfl

end Cert.KernelIdeal.Val

end
-- ==== Proof.LibScatterWindow.lean ====
import proofs.«421950_j9620726743150_3_alg».proof.Proof.LibScatterAddAt
import Idealize.ShloMosaic.PureOps.ShapeOps

namespace Idealize.ShloMosaic

section ScatterWindow
variable {s si u : Shape} {α : Type} {w : Nat}

/-- Folding in updates none of which lands at `i` leaves `i` as it was. -/
private theorem fold_not_hit (upd : u.Idx → α) (g : u.Idx → s.Idx) (i : s.Idx) :
    ∀ (l : List (Fin u.numel)) (r : s.Idx → α), (∀ n ∈ l, g (u.rowMajor.symm n) ≠ i) →
      l.foldl (fun r n i' => if i' = g (u.rowMajor.symm n) then upd (u.rowMajor.symm n) else r i') r i = r i
  | [], _, _ => rfl
  | a :: l, r, h => by
    rw [List.foldl_cons, fold_not_hit upd g i l _ fun n hn => h n (List.mem_cons_of_mem _ hn)]
    exact if_neg fun e => h a List.mem_cons_self e.symm

/-- Folding in updates that land at distinct indices leaves, where update `n` of the list lands, that update. -/
private theorem fold_hit (upd : u.Idx → α) (g : u.Idx → s.Idx) (hinj : Function.Injective g) (n : Fin u.numel) :
    ∀ (l : List (Fin u.numel)) (r : s.Idx → α), n ∈ l →
      l.foldl (fun r n i' => if i' = g (u.rowMajor.symm n) then upd (u.rowMajor.symm n) else r i') r
        (g (u.rowMajor.symm n)) = upd (u.rowMajor.symm n)
  | [], _, h => nomatch h
  | a :: l, r, h => by
    rw [List.foldl_cons]
    by_cases hl : n ∈ l
    · exact fold_hit upd g hinj n l _ hl
    · obtain rfl : n = a := (List.mem_cons.1 h).resolve_right hl
      rw [fold_not_hit upd g _ l _ fun n' hn' e => hl ((u.rowMajor.symm.injective (hinj e) : n' = n) ▸ hn')]
      exact if_pos rfl

theorem Host.scatter_set_apply_mem (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j := by
  unfold Host.scatter
  simp only [hg]
  have := fold_hit upd g hinj (u.rowMajor j) (List.finRange u.numel) x (List.mem_finRange _)
  rwa [Equiv.symm_apply_apply] at this

theorem Host.scatter_set_apply_not_mem (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i := by
  unfold Host.scatter
  simp only [hg]
  exact fold_not_hit upd g i _ x fun n _ => hi _

end ScatterWindow

section Rows
open ValueIdx
variable {α : Type} {R C V : Nat} (wf : ScatterDims.WF ⟨2, ![R, C]⟩ ⟨1, ![1]⟩ ⟨2, ![V, C]⟩ [0, 1] [] [0] 0)
  (x : (⟨2, ![R, C]⟩ : Shape).Idx → α) (idx : IVec ⟨1, ![1]⟩ 32) (upd : (⟨2, ![V, C]⟩ : Shape).Idx → α)
  (o : Nat) (ho : ∀ k, (idx k).toInt = (o : Int)) (hoV : o + V ≤ R)
include ho hoV

/-- Rows written at the one offset word `o`: update `(v, c)` lands at `(o + v, c)`. -/
theorem ScatterDims.resultIdx?_rows (j : (⟨2, ![V, C]⟩ : Shape).Idx) :
    (ScatterDims.mk [0, 1] [] [0] 0 wf).resultIdx? j idx = some (@ix2 R C ⟨o + (j 0).val, by have := idx2_lt0 j; omega⟩ (j 1)) := by
  rw [Cert.LibScatterAddAt.resultIdx?_eq_some_iff, Fin.forall_fin_two]
  show (idx _).toInt + ((j 0).val : ℤ) = ((o + (j 0).val : ℕ) : ℤ) ∧ (0 : ℤ) + ((j 1).val : ℤ) = ((j 1).val : ℤ)
  rw [ho, Nat.cast_add, zero_add]
  exact ⟨rfl, rfl⟩

/-- Inside the written rows: row `o + v` holds the update's row `v`. -/
theorem Host.scatter_rows_mem (l : Fin R) (v : Fin V) (c : Fin C) (hl : l.val = o + v.val) :
    Host.scatter ⟨[0, 1], [], [0], 0, wf⟩ (fun _ b => b) x idx upd (ix2 l c) = upd (ix2 v c) := by
  rw [← Host.scatter_set_apply_mem _ x idx upd _ (ScatterDims.resultIdx?_rows wf idx o ho hoV) (fun j j' e => by
    have : o + (j 0).val = o + (j' 0).val := congrArg (fun f : (⟨2, ![R, C]⟩ : Shape).Idx => (f 0).val) e
    exact funext (Fin.forall_fin_two.2 ⟨Fin.ext (by omega), congrFun e 1⟩)) (ix2 v c)]
  exact congrArg _ (funext (Fin.forall_fin_two.2 ⟨Fin.ext hl, rfl⟩))

/-- Outside the written rows: the operand's own element. -/
theorem Host.scatter_rows_not_mem (l : Fin R) (c : Fin C) (hl : l.val < o ∨ o + V ≤ l.val) :
    Host.scatter ⟨[0, 1], [], [0], 0, wf⟩ (fun _ b => b) x idx upd (ix2 l c) = x (ix2 l c) := by
  refine Host.scatter_set_apply_not_mem _ x idx upd _ (ScatterDims.resultIdx?_rows wf idx o ho hoV) _ fun j e => ?_
  · have : o + (j 0).val = l.val := congrArg (fun f : (⟨2, ![R, C]⟩ : Shape).Idx => (f 0).val) e
    have := idx2_lt0 j
    omega

end Rows

end Idealize.ShloMosaic
-- ==== Proof.KIHostVal.lean ====
import proofs.«421950_j9620726743150_3_alg».proof.Proof.KIHostNorm
import proofs.«421950_j9620726743150_3_alg».proof.Proof.LibScatterWindow

set_option maxRecDepth 4096

noncomputable section

namespace Cert.KernelIdeal.Val

open Cert.KernelIdeal Cert.KernelIdeal.Gen Idealize.ShloMosaic Idealize.ShloMosaic.ValueIdx Idealize.SL.Sem

theorem concat_cols2_apply {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (k : Fin n) (p : Fin 2) :
    concatenate ⟨2, ![n, 2]⟩ 1 [⟨⟨2, ![n, 1]⟩, x₁⟩, ⟨⟨2, ![n, 1]⟩, x₂⟩] h (ix2 k p)
      = if p = 0 then x₁ (ix2 k (0 : Fin 1)) else x₂ (ix2 k (0 : Fin 1)) := by
  revert p
  refine Fin.forall_fin_two.2 ⟨?_, ?_⟩
  · exact (concatenate_pair_apply_left (1 : Fin 2) x₁ x₂ h (ix2 k (0 : Fin 2)) rfl (ix2 k (0 : Fin 1)) fun b => by
      match b with
      | ⟨0, _⟩ => rfl
      | ⟨1, _⟩ => rfl).trans (if_pos rfl).symm
  · exact (concatenate_pair_apply_right (1 : Fin 2) x₁ x₂ h (ix2 k (1 : Fin 2)) rfl rfl (ix2 k (0 : Fin 1)) (fun b hb => by
      match b with
      | ⟨0, _⟩ => rfl
      | ⟨1, _⟩ => exact absurd rfl hb) rfl).trans (if_neg (show ¬(1 : Fin 2) = 0 by decide)).symm

variable (m : (ℓ : Loc nD τ sig) → Buf (Elt Ideal) ℓ) (c : Dev nD)

theorem H3_keep (r : Ref sig .tc) (h0 : r ∉ hostOps0_W) (h1 : r ∉ hostOps0_1_W) (h2 : r ∉ hostOps0_2_W) :
    H3 m c (Proc.devRef .tc r) = m ((c.tc : Thread nD τ).loc r) :=
  (V3_of m c r h2).trans ((V2_of m c r h1).trans ((V1_of m c r h0).trans rfl))

theorem H2_keep (r : Ref sig .tc) (h0 : r ∉ hostOps0_W) (h1 : r ∉ hostOps0_1_W) :
    StableHlo.after hostOps0_1 (StableHlo.after hostOps0 (fun b => m ((c : Dev nD), b))) (Proc.devRef .tc r)
      = m ((c.tc : Thread nD τ).loc r) :=
  (V2_of m c r h1).trans ((V1_of m c r h0).trans rfl)

theorem H3_arg2 : H3 m c (Proc.devRef .tc main_arg2) = m ((c.tc : Thread nD τ).loc main_arg2) :=
  H3_keep m c _ (by decide) (by decide) (by decide)
theorem H3_arg4 : H3 m c (Proc.devRef .tc main_arg4) = m ((c.tc : Thread nD τ).loc main_arg4) :=
  H3_keep m c _ (by decide) (by decide) (by decide)
theorem H3_arg6 : H3 m c (Proc.devRef .tc main_arg6) = m ((c.tc : Thread nD τ).loc main_arg6) :=
  H3_keep m c _ (by decide) (by decide) (by decide)
theorem H3_arg12 : H3 m c (Proc.devRef .tc main_arg12) = m ((c.tc : Thread nD τ).loc main_arg12) :=
  H3_keep m c _ (by decide) (by decide) (by decide)

theorem H3_b1 (j : Fin 128) : (H3 m c (Proc.devRef .tc main_v52) : S1x128.Idx → EReal) (ix2 (0 : Fin 1) j) = (inpK m c).b1 j := by
  have e : ∀ X : Valuation τ sig (Elt Ideal), (StableHlo.after (hostOps0_2 (F := Ideal)) X (Proc.devRef .tc main_v52) : S1x128.Idx → EReal)
      = shapeCast S1x128 (X (Proc.devRef .tc main_arg3) : S128.Idx → EReal) shapeCasts_S128_S1x128 := fun X => by after_results <;> rfl
  exact (congrFun (e _) _).trans ((shapeCast_a_1a_apply _ _ _ _).trans
    (congrFun (H2_keep m c main_arg3 (by decide) (by decide)) (ix1 j)))
theorem H3_b2 (j : Fin 128) : (H3 m c (Proc.devRef .tc main_v53) : S1x128.Idx → EReal) (ix2 (0 : Fin 1) j) = (inpK m c).b2 j := by
  have e : ∀ X : Valuation τ sig (Elt Ideal), (StableHlo.after (hostOps0_2 (F := Ideal)) X (Proc.devRef .tc main_v53) : S1x128.Idx → EReal)
      = shapeCast S1x128 (X (Proc.devRef .tc main_arg5) : S128.Idx → EReal) shapeCasts_S128_S1x128 := fun X => by after_results <;> rfl
  exact (congrFun (e _) _).trans ((shapeCast_a_1a_apply _ _ _ _).trans
    (congrFun (H2_keep m c main_arg5 (by decide) (by decide)) (ix1 j)))
theorem H3_bdown (j : Fin 128) : (H3 m c (Proc.devRef .tc main_v54) : S1x128.Idx → EReal) (ix2 (0 : Fin 1) j) = (inpK m c).bdown j := by
  have e : ∀ X : Valuation τ sig (Elt Ideal), (StableHlo.after (hostOps0_2 (F := Ideal)) X (Proc.devRef .tc main_v54) : S1x128.Idx → EReal)
      = shapeCast S1x128 (X (Proc.devRef .tc main_arg13) : S128.Idx → EReal) shapeCasts_S128_S1x128 := fun X => by after_results <;> rfl
  exact (congrFun (e _) _).trans ((shapeCast_a_1a_apply _ _ _ _).trans
    (congrFun (H2_keep m c main_arg13 (by decide) (by decide)) (ix1 j)))
theorem H3_blin (q : Fin 16) : (H3 m c (Proc.devRef .tc main_v55) : S1x16.Idx → EReal) (ix2 (0 : Fin 1) q) = (inpK m c).blin q := by
  have e : ∀ X : Valuation τ sig (Elt Ideal), (StableHlo.after (hostOps0_2 (F := Ideal)) X (Proc.devRef .tc main_v55) : S1x16.Idx → EReal)
      = shapeCast S1x16 (X (Proc.devRef .tc main_arg7) : S16.Idx → EReal) shapeCasts_S16_S1x16 := fun X => by after_results <;> rfl
  exact (congrFun (e _) _).trans ((shapeCast_a_1a_apply _ _ _ _).trans
    (congrFun (H2_keep m c main_arg7 (by decide) (by decide)) (ix1 q)))

theorem s2_v51 (X : Valuation τ sig (Elt Ideal)) (k : Fin 128) (p : Fin 2) :
    (StableHlo.after (hostOps0_2 (F := Ideal)) X (Proc.devRef .tc main_v51) : S128x2.Idx → EReal) (ix2 k p)
      = if p = 0 then (X (Proc.devRef .tc main_arg8) : S128x1.Idx → EReal) (ix2 k (0 : Fin 1))
        else (X (Proc.devRef .tc main_arg10) : S128x1.Idx → EReal) (ix2 k (0 : Fin 1)) := by
  after_results_simp
  refine (concat_cols2_apply _ _ _ k p).trans ?_
  after_results_simp

theorem H3_wdeg (k : Fin 128) (p : Fin 2) :
    (H3 m c (Proc.devRef .tc main_v51) : S128x2.Idx → EReal) (ix2 k p) = if p = 0 then (inpK m c).Wd2 k else (inpK m c).Wd3 k := by
  refine (s2_v51 _ k p).trans ?_
  rw [H2_keep m c main_arg8 (by decide) (by decide), H2_keep m c main_arg10 (by decide) (by decide)]
  rfl

theorem s2_v57 (X : Valuation τ sig (Elt Ideal)) (p : Fin 2) :
    (StableHlo.after (hostOps0_2 (F := Ideal)) X (Proc.devRef .tc main_v57) : S1x2.Idx → EReal) (ix2 (0 : Fin 1) p)
      = if p = 0 then (X (Proc.devRef .tc main_arg9) : S1.Idx → EReal) (ix1 (0 : Fin 1))
        else (X (Proc.devRef .tc main_arg11) : S1.Idx → EReal) (ix1 (0 : Fin 1)) := by
  after_results_simp
  refine (shapeCast_a_1a_apply _ _ _ _).trans ?_
  revert p
  refine Fin.forall_fin_two.2 ⟨?_, ?_⟩
  · rw [if_pos rfl]
    refine (Cert.EdgeOps.concat2_left _ _ _ (0 : Fin 2) (by decide)).trans ?_
    after_results_simp <;> rfl
  · rw [if_neg (by decide)]
    refine (Cert.EdgeOps.concat2_right _ _ _ (1 : Fin 2) (by decide) (by decide)).trans ?_
    after_results_simp <;> rfl

theorem H3_bdeg (p : Fin 2) :
    (H3 m c (Proc.devRef .tc main_v57) : S1x2.Idx → EReal) (ix2 (0 : Fin 1) p) = if p = 0 then (inpK m c).bd2 else (inpK m c).bd3 := by
  refine (s2_v57 _ p).trans ?_
  rw [H2_keep m c main_arg9 (by decide) (by decide), H2_keep m c main_arg11 (by decide) (by decide)]
  rfl

section Tail
variable (X : Valuation τ sig (Elt Ideal))

theorem tail_v61 (i : Fin 10000) (q : Fin 16) :
    (StableHlo.after (hostOps3 (F := Ideal)) X (Proc.devRef .tc main_v61) : S10000x16.Idx → EReal) (ix2 i q)
      = (X (Proc.devRef .tc main_v60) : S10240x128.Idx → EReal) (ix2 ⟨i.val, by omega⟩ ⟨q.val, by omega⟩) := by
  have e : (StableHlo.after (hostOps3 (F := Ideal)) X (Proc.devRef .tc main_v61) : S10000x16.Idx → EReal)
      = extractStridedSlice S10000x16 ![0, 0] (X (Proc.devRef .tc main_v60) : S10240x128.Idx → EReal) slices_S10240x128_S10000x16_0_0 := by
    after_results <;> rfl
  rw [e]
  exact extractStridedSlice_apply _ _ _ _ _ fun a => by
    match a with
    | ⟨0, _⟩ => exact (Nat.zero_add _).symm
    | ⟨1, _⟩ => exact (Nat.zero_add _).symm

/-- Column `q` of the first 10000 rows, taken out as a vector, read at `i`. -/
theorem col_read (Y : S10240x128.Idx → EReal) (q : Nat) (hq : q < 128) (hs : S10240x128.Slices ![0, q] S10000x1) (i : Fin 10000) :
    shapeCast S10000 (extractStridedSlice S10000x1 ![0, q] Y hs) shapeCasts_S10000x1_S10000 (ix1 i)
      = Y (ix2 ⟨i.val, by omega⟩ ⟨q, hq⟩) := by
  refine (shapeCast_apply _ _ (ix1 i) (ix2 i (0 : Fin 1)) (by
    rw [Shape.rowMajor_val_two, Shape.rowMajor_val_one]
    show i.val * 1 + 0 = i.val
    omega)).trans ?_
  exact extractStridedSlice_apply _ _ _ _ _ fun a => by
    match a with
    | ⟨0, _⟩ => exact (Nat.zero_add _).symm
    | ⟨1, _⟩ => rfl

theorem tail_v63 (i : Fin 10000) :
    (StableHlo.after (hostOps3 (F := Ideal)) X (Proc.devRef .tc main_v63) : S10000.Idx → EReal) (ix1 i)
      = (X (Proc.devRef .tc main_v60) : S10240x128.Idx → EReal) (ix2 ⟨i.val, by omega⟩ ⟨16, by omega⟩) := by
  have e : (StableHlo.after (hostOps3 (F := Ideal)) X (Proc.devRef .tc main_v63) : S10000.Idx → EReal)
      = shapeCast S10000 (extractStridedSlice S10000x1 ![0, 16] (X (Proc.devRef .tc main_v60) : S10240x128.Idx → EReal) slices_S10240x128_S10000x1_0_16) shapeCasts_S10000x1_S10000 := by
    after_results <;> rfl
  rw [e]; exact col_read _ 16 _ _ i

theorem tail_v65 (i : Fin 10000) :
    (StableHlo.after (hostOps3 (F := Ideal)) X (Proc.devRef .tc main_v65) : S10000.Idx → EReal) (ix1 i)
      = (X (Proc.devRef .tc main_v60) : S10240x128.Idx → EReal) (ix2 ⟨i.val, by omega⟩ ⟨17, by omega⟩) := by
  have e : (StableHlo.after (hostOps3 (F := Ideal)) X (Proc.devRef .tc main_v65) : S10000.Idx → EReal)
      = shapeCast S10000 (extractStridedSlice S10000x1 ![0, 17] (X (Proc.devRef .tc main_v60) : S10240x128.Idx → EReal) slices_S10240x128_S10000x1_0_17) shapeCasts_S10000x1_S10000 := by
    after_results <;> rfl
  rw [e]; exact col_read _ 17 _ _ i

end Tail

theorem s2_v50 (X : Valuation τ sig (Elt Ideal)) :
    (StableHlo.after (hostOps0_2 (F := Ideal)) X (Proc.devRef .tc main_v50) : S10240x128.Idx → EReal)
      = Host.scatter scatter_S10240x128_S1_S10000x128_01_n_0_0 (fun _ b => b)
          (broadcastInDim S10240x128 ![] bcast_S_S10240x128 (constant (F := Ideal) S_ .f32 0x00000000#32))
          (broadcastInDim S1 ![] bcast_S_S1 (constantI S_ 32 0#32))
          (X (Proc.devRef .tc main_arg0) : S10000x128.Idx → EReal) := by
  after_results <;> rfl

theorem H3_xpad (r : Fin 10240) (k : Fin 128) :
    (H3 m c (Proc.devRef .tc main_v50) : S10240x128.Idx → EReal) (ix2 r k) = Cert.Spec.xpad (inpK m c) r.val k := by
  refine (congrFun (s2_v50 _) (ix2 r k)).trans ?_
  rw [H2_keep m c main_arg0 (by decide) (by decide)]
  have ho : ∀ k', ((broadcastInDim S1 ![] bcast_S_S1 (constantI S_ 32 0#32) : IVec S1 32) k').toInt = ((0 : ℕ) : ℤ) :=
    fun _ => by show (0#32 : BitVec 32).toInt = ((0 : ℕ) : ℤ); decide
  unfold Cert.Spec.xpad
  by_cases h : r.val < 10000
  · rw [dif_pos h]
    exact Host.scatter_rows_mem _ _ _ _ 0 ho (by omega) r ⟨r.val, h⟩ k (Nat.zero_add _).symm
  · rw [dif_neg h]
    exact (Host.scatter_rows_not_mem _ _ _ _ 0 ho (by omega) r k (Or.inr (by omega))).trans Ideal.ofBits_zero_f32

abbrev entry {S : Shape} (f : S.Idx → EReal) (j : S.Idx) : EReal := f j

/-- The point scatter of the program at the exact values, read at an entry. -/
theorem points_at (x : FVec Ideal S10240x10240 .f32) (idx : IVec S650000x2 32) (upd : FVec Ideal S650000 .f32) (i c' : Fin 10240) :
    Host.scatterAdd (F := Ideal) scatter_S10240x10240_S650000x2_S650000_n_01_01_1 x idx upd (ix2 i c')
      = x (ix2 i c') + ∑ e : Fin 650000,
          if (idx (ix2 e 0)).toInt = (i.val : ℤ) ∧ (idx (ix2 e 1)).toInt = (c'.val : ℤ) then upd (ix1 e) else 0 :=
  Cert.LibScatterAddAt.points_apply _ x idx upd i c'

theorem s2_v47_term (X : Valuation τ sig (Elt Ideal)) :
    StableHlo.after (hostOps0_2 (F := Ideal)) X (Proc.devRef .tc main_v47)
      = truncf .bf16 (Host.scatterAdd (F := Ideal) scatter_S10240x10240_S650000x2_S650000_n_01_01_1
          (broadcastInDim S10240x10240 ![] bcast_S_S10240x10240 (constant (F := Ideal) S_ .f32 0x00000000#32))
          (concatenate S650000x2 1
            [⟨S650000x1, broadcastInDim S650000x1 ![0] bcast_S650000_S650000x1_0 (wrapW 10240#32 (X (Proc.devRef .tc main_v6)))⟩,
              ⟨S650000x1, broadcastInDim S650000x1 ![0] bcast_S650000_S650000x1_0 (wrapW 10240#32 (X (Proc.devRef .tc main_v3)))⟩]
            concatenates_S650000x1_S650000x1_S650000x2_d1)
          (StableHlo.after (hostOps0_2 (F := Ideal)) X (Proc.devRef .tc main_v31))) bitsLt_bf16_f32 := by
  after_results_simp; rfl

theorem s2_v47 (X : Valuation τ sig (Elt Ideal)) (i c' : Fin 10240) :
    entry (StableHlo.after (hostOps0_2 (F := Ideal)) X (Proc.devRef .tc main_v47) : S10240x10240.Idx → EReal) (ix2 i c')
      = ∑ e : Fin 650000,
          ((if (wrapW 10240#32 (X (Proc.devRef .tc main_v6)) (ix1 e)).toInt = (i.val : ℤ)
              ∧ (wrapW 10240#32 (X (Proc.devRef .tc main_v3)) (ix1 e)).toInt = (c'.val : ℤ)
          then entry (StableHlo.after (hostOps0_2 (F := Ideal)) X (Proc.devRef .tc main_v31) : S650000.Idx → EReal) (ix1 e) else 0) : EReal) := by
  unfold entry
  rw [s2_v47_term]
  refine Eq.trans (truncf_apply _ _ _) ?_
  refine (points_at _ _ _ i c').trans ?_
  rw [show (broadcastInDim S10240x10240 ![] bcast_S_S10240x10240 (constant (F := Ideal) S_ .f32 0x00000000#32) : FVec Ideal S10240x10240 .f32) (ix2 i c') = 0
    from Ideal.ofBits_zero_f32, zero_add]
  refine Finset.sum_congr rfl fun e _ => if_congr ?_ rfl rfl
  rw [concat_cols2_apply, concat_cols2_apply, if_pos rfl, if_neg (by decide), column_apply, column_apply]

/-- The adjacency the regions read is the specification's: entry `(i, c')` is the total weight of the edges `c' → i`. -/
theorem H3_adj (hr : InRange m c) (i c' : Fin 10240) :
    (H3 m c (Proc.devRef .tc main_v47) : S10240x10240.Idx → EReal) (ix2 i c') = Cert.Spec.adj (inpK m c) i.val c'.val := by
  refine (s2_v47 _ i c').trans (Finset.sum_congr rfl fun e _ => ?_)
  obtain ⟨⟨h3, -⟩, h6, -⟩ := ends_spec m c hr e
  rw [V2_v6, V2_v3, wrapW_apply _ _ _ (by rw [h6]; exact Int.natCast_nonneg _),
    wrapW_apply _ _ _ (by rw [h3]; exact Int.natCast_nonneg _), h6, h3]
  refine if_congr ?_ (H3_nrm m c hr e) rfl
  rw [Nat.cast_inj, Nat.cast_inj]

end Cert.KernelIdeal.Val
end
-- ==== Proof.LibMatmulAt.lean ====
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

-- a matrix product added to zero, read at (p, q), is the sum over the contracted axis
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

theorem ix2_eq {n0 n1 : ℕ} {a a' : Fin n0} {b b' : Fin n1} (ha : a.val = a'.val) (hb : b.val = b'.val) : ix2 a b = ix2 a' b' := by
  cases Fin.ext ha; cases Fin.ext hb; rfl

-- four block products added in order, starting from zero, make up one row of the blocked product
theorem blockAgg_at {N d : ℕ} (f : (n : ℕ) → n < N → (⟨2, ![2560, d]⟩ : Shape).Idx → EReal)
    (A : (n : ℕ) → n < N → (⟨2, ![2560, 2560]⟩ : Shape).Idx → EReal)
    (X : (n : ℕ) → n < N → (⟨2, ![2560, d]⟩ : Shape).Idx → EReal)
    (adj : (⟨2, ![10240, 10240]⟩ : Shape).Idx → EReal) (x : (⟨2, ![10240, d]⟩ : Shape).Idx → EReal)
    (hA : ∀ n h (p cc : Fin 2560) (r s : Fin 10240), r.val = 2560 * (n / 4) + p.val → s.val = 2560 * (n % 4) + cc.val →
      A n h (ix2 p cc) = adj (ix2 r s))
    (hX : ∀ n h (cc : Fin 2560) (k : Fin d) (s : Fin 10240), s.val = 2560 * (n % 4) + cc.val → X n h (ix2 cc k) = x (ix2 s k))
    (h0 : ∀ n h p k, n % 4 = 0 → f n h (ix2 p k) = 0 + ∑ cc : Fin 2560, A n h (ix2 p cc) * X n h (ix2 cc k))
    (hs : ∀ n (h : n + 1 < N) p k, (n + 1) % 4 ≠ 0 →
      f (n + 1) h (ix2 p k) = f n (Nat.lt_of_succ_lt h) (ix2 p k) + ∑ cc : Fin 2560, A (n + 1) h (ix2 p cc) * X (n + 1) h (ix2 cc k))
    (n : ℕ) (hn0 : n % 4 = 0) (hn : n + 3 < N) (p : Fin 2560) (k : Fin d) (r : Fin 10240) (hr : r.val = 2560 * (n / 4) + p.val) :
    f (n + 3) hn (ix2 p k)
      = ∑ kb : Fin 4, ∑ cc : Fin 2560, adj (ix2 r ⟨2560 * kb.val + cc.val, by omega⟩) * x (ix2 ⟨2560 * kb.val + cc.val, by omega⟩ k) := by
  have key : ∀ (j : ℕ) (hj : j < 4) (h : n + j < N),
      (∑ cc : Fin 2560, A (n + j) h (ix2 p cc) * X (n + j) h (ix2 cc k))
        = ∑ cc : Fin 2560, adj (ix2 r ⟨2560 * j + cc.val, by omega⟩) * x (ix2 ⟨2560 * j + cc.val, by omega⟩ k) :=
    fun j hj h => Finset.sum_congr rfl fun cc _ => congrArg₂ (· * ·)
      (hA _ h p cc r _ (by omega) (by show 2560 * j + cc.val = 2560 * ((n + j) % 4) + cc.val; omega))
      (hX _ h cc k _ (by show 2560 * j + cc.val = 2560 * ((n + j) % 4) + cc.val; omega))
  show f (n + 1 + 1 + 1) hn _ = _
  rw [hs (n + 1 + 1) hn p k (by omega), hs (n + 1) (Nat.lt_of_succ_lt hn) p k (by omega),
    hs n (Nat.lt_of_succ_lt (Nat.lt_of_succ_lt hn)) p k (by omega), h0 n _ p k hn0, zero_add, Fin.sum_univ_four]
  exact congrArg₂ (· + ·) (congrArg₂ (· + ·) (congrArg₂ (· + ·) (key 0 (by omega) _) (key 1 (by omega) _))
    (key 2 (by omega) _)) (key 3 (by omega) hn)

end Idealize.ShloMosaic.MatmulAt

end
-- ==== Proof.KIVal0.lean ====
import proofs.«421950_j9620726743150_3_alg».proof.Proof.KIDat0
import proofs.«421950_j9620726743150_3_alg».proof.Proof.LibMatmulAt
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem proj0_at (x : Vec Ideal S2560x128 .f32) (w : Vec Ideal S128x128 .f32) (p : Fin 2560) (q : Fin 128) :
    (k0_pay2 x w : S2560x128.Idx → EReal) (ix2 p q) = ∑ k : Fin 128, (x (ix2 p k) : EReal) * (w (ix2 k q) : EReal) := by
  unfold k0_pay2 k0_pay1
  rw [shapeCast_self]
  exact MatmulAt.matmul_plain_apply (φ₁ := .f32) (φ₂ := .f32) none x w p q

theorem skip0_at (x : Vec Ideal S2560x128 .f32) (w : Vec Ideal S128x128 .f32) (b : Vec Ideal S1x128 .f32) (p : Fin 2560) (q : Fin 128) :
    (k0_pay3 x w b : S2560x128.Idx → EReal) (ix2 p q)
      = (∑ k : Fin 128, (x (ix2 p k) : EReal) * (w (ix2 k q) : EReal)) + (b (ix2 (0 : Fin 1) q) : EReal) := by
  unfold k0_pay3 k0_pay1
  rw [shapeCast_self, shapeCast_self]
  exact congrArg₂ (· + ·) (MatmulAt.matmul_plain_apply (φ₁ := .f32) (φ₂ := .f32) none x w p q)
    (broadcastTo_1b_ab_apply b broadcasts_S1x128_S2560x128 p q)

variable (V : (c : Dev nD) → (b : Ref sig .tc) → Buf (Elt Ideal) ((c : Thread nD τ).loc b)) (c : Dev nD)

abbrev featArr0 : Vec Ideal S10240x128 .f32 := V c main_v50
abbrev w1Arr0 : Vec Ideal S128x128 .f32 := V c main_arg2
abbrev wdArr0 : Vec Ideal S128x128 .f32 := V c main_arg12
abbrev bdArr0 : Vec Ideal S1x128 .f32 := V c main_v54

theorem points0 : cfg0.N = 4 := N_0

theorem whole0 : ∀ t : Fin cfg0.N, (∀ a, win0_1.index t a = 0) ∧ (∀ a, win0_2.index t a = 0) ∧ (∀ a, win0_3.index t a = 0) :=
  (by decide +kernel : ∀ t : Fin grid0.N, _)

theorem rows0 : ∀ t : Fin cfg0.N, win0_0.index t 0 = t.val ∧ win0_0.index t 1 = 0 ∧ win0_4.index t 0 = t.val ∧ win0_4.index t 1 = 0
    ∧ win0_5.index t 0 = t.val ∧ win0_5.index t 1 = 0 :=
  (by decide +kernel : ∀ t : Fin grid0.N, _)

-- the slice of full extent at offset zero is the array itself
theorem wholeBlk0 (t : Fin cfg0.N) :
    iblk0 V c 1 t = w1Arr0 V c ∧ iblk0 V c 2 t = wdArr0 V c ∧ iblk0 V c 3 t = bdArr0 V c :=
  ⟨funext fun y => congrArg (w1Arr0 V c) (funext fun a => Fin.ext (win0_1.rect_emb_val_of_index_zero t a ((whole0 t).1 a) y)),
   funext fun y => congrArg (wdArr0 V c) (funext fun a => Fin.ext (win0_2.rect_emb_val_of_index_zero t a ((whole0 t).2.1 a) y)),
   funext fun y => congrArg (bdArr0 V c) (funext fun a => Fin.ext (win0_3.rect_emb_val_of_index_zero t a ((whole0 t).2.2 a) y))⟩

theorem featBlk0_at (t : Fin cfg0.N) (p : Fin 2560) (k : Fin 128) (r : Fin 10240) (hr : r.val = 2560 * t.val + p.val) :
    (iblk0 V c 0 t : S2560x128.Idx → EReal) (ix2 p k) = featArr0 V c (ix2 r k) := by
  have f := rows0 t
  show featArr0 V c (((cfg0.win 0).blk t).view.emb (ix2 p k)) = _
  exact congrArg _ (Shape.idx_ext₂ (by show win0_0.index t 0 * 2560 + 1 * p.val = r.val; omega)
    (by show win0_0.index t 1 * 128 + 1 * k.val = k.val; omega))

def projArr0 : S10240x128.Idx → EReal := fun i =>
  ∑ k : Fin 128, featArr0 V c (ix2 (i 0 : Fin 10240) k) * w1Arr0 V c (ix2 k (i 1 : Fin 128))

def skipArr0 : S10240x128.Idx → EReal := fun i =>
  (∑ k : Fin 128, featArr0 V c (ix2 (i 0 : Fin 10240) k) * wdArr0 V c (ix2 k (i 1 : Fin 128)))
    + bdArr0 V c (ix2 (0 : Fin 1) (i 1 : Fin 128))

theorem proj_flushed0 (t : Fin cfg0.N) :
    (dat0 V c).flushed 4 t = ((cfg0.win 4).blk t).view.read (Elt Ideal) (projArr0 V c) := by
  show (cfg0.win 4).cut (grid0.coords t) ((dat0 V c).after 4 t) = _
  rw [after0_4]
  funext j
  show (k0_pay2 (iblk0 V c 0 t) (iblk0 V c 1 t) : S2560x128.Idx → EReal) j = projArr0 V c (((cfg0.win 4).blk t).view.emb j)
  obtain ⟨p, q, rfl⟩ : ∃ (p : Fin 2560) (q : Fin 128), j = ix2 p q := ⟨j 0, j 1, eq_ix2 j⟩
  have f := rows0 t
  have hcol : ((((cfg0.win 4).blk t).view.emb (ix2 p q)) 1 : Fin 128) = q := Fin.ext (by
    show win0_4.index t 1 * 128 + 1 * q.val = _; omega)
  unfold projArr0
  rw [hcol]
  exact (proj0_at _ _ p q).trans (Finset.sum_congr rfl fun k _ => congrArg₂ (· * ·)
    (featBlk0_at V c t p k _ (by show win0_4.index t 0 * 2560 + 1 * p.val = _; omega)) (congrFun (wholeBlk0 V c t).1 _))

theorem skip_flushed0 (t : Fin cfg0.N) :
    (dat0 V c).flushed 5 t = ((cfg0.win 5).blk t).view.read (Elt Ideal) (skipArr0 V c) := by
  show (cfg0.win 5).cut (grid0.coords t) ((dat0 V c).after 5 t) = _
  rw [after0_5]
  funext j
  show (k0_pay3 (iblk0 V c 0 t) (iblk0 V c 2 t) (iblk0 V c 3 t) : S2560x128.Idx → EReal) j = skipArr0 V c (((cfg0.win 5).blk t).view.emb j)
  obtain ⟨p, q, rfl⟩ : ∃ (p : Fin 2560) (q : Fin 128), j = ix2 p q := ⟨j 0, j 1, eq_ix2 j⟩
  have f := rows0 t
  have hcol : ((((cfg0.win 5).blk t).view.emb (ix2 p q)) 1 : Fin 128) = q := Fin.ext (by
    show win0_5.index t 1 * 128 + 1 * q.val = _; omega)
  unfold skipArr0
  rw [hcol]
  exact (skip0_at _ _ _ p q).trans (congrArg₂ (· + ·)
    (Finset.sum_congr rfl fun k _ => congrArg₂ (· * ·)
      (featBlk0_at V c t p k _ (by show win0_5.index t 0 * 2560 + 1 * p.val = _; omega)) (congrFun (wholeBlk0 V c t).2.1 _))
    (congrFun (wholeBlk0 V c t).2.2 _))

-- row r lies in row block r / 2560
theorem cover0 (i : S10240x128.Idx) :
    (∃ t : Fin cfg0.N, (cfg0.win 4).flush t = true ∧ i ∈ ((cfg0.win 4).blk t).view.set)
      ∧ ∃ t : Fin cfg0.N, (cfg0.win 5).flush t = true ∧ i ∈ ((cfg0.win 5).blk t).view.set := by
  have hN := points0
  have h0 := idx2_lt0 i
  obtain ⟨t, ht⟩ : ∃ t : Fin cfg0.N, t.val = (i 0).val / 2560 := ⟨⟨_, by omega⟩, rfl⟩
  have f := rows0 t
  have e4 : ((cfg0.win 4).blk t).view.emb (ix2 ⟨(i 0).val % 2560, Nat.mod_lt _ (by omega)⟩ (i 1)) = i :=
    Shape.idx_ext₂ (by show win0_4.index t 0 * 2560 + 1 * ((i 0).val % 2560) = (i 0).val; omega)
      (by show win0_4.index t 1 * 128 + 1 * (i 1).val = (i 1).val; omega)
  have e5 : ((cfg0.win 5).blk t).view.emb (ix2 ⟨(i 0).val % 2560, Nat.mod_lt _ (by omega)⟩ (i 1)) = i :=
    Shape.idx_ext₂ (by show win0_5.index t 0 * 2560 + 1 * ((i 0).val % 2560) = (i 0).val; omega)
      (by show win0_5.index t 1 * 128 + 1 * (i 1).val = (i 1).val; omega)
  exact ⟨⟨t, flush0_4 t, e4 ▸ View.emb_mem_set _ _⟩, t, flush0_5 t, e5 ▸ View.emb_mem_set _ _⟩

theorem arr0_xw1 : (dat0 V c).arrAt 4 cfg0.N = projArr0 V c :=
  (dat0 V c).arrAt_eq_of_cover 4 (projArr0 V c) (fun t _ => proj_flushed0 V c t) fun i => (cover0 i).1

theorem arr0_orig : (dat0 V c).arrAt 5 cfg0.N = skipArr0 V c :=
  (dat0 V c).arrAt_eq_of_cover 5 (skipArr0 V c) (fun t _ => skip_flushed0 V c t) fun i => (cover0 i).2

end Cert.KernelIdeal.Val

end
-- ==== Proof.KIVal1.lean ====
import proofs.«421950_j9620726743150_3_alg».proof.Proof.KIDat1
import proofs.«421950_j9620726743150_3_alg».proof.Proof.LibMatmulAt
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

theorem reset1_at (i : S2560x128.Idx) : (k1_pay1 (F := Ideal) : S2560x128.Idx → EReal) i = 0 :=
  Ideal.ofBits_zero_f32

theorem step1_at (a : Vec Ideal S2560x128 .f32) (A : Vec Ideal S2560x2560 .bf16) (x : Vec Ideal S2560x128 .bf16) (p : Fin 2560) (q : Fin 128) :
    (k1_pay2 a A x : S2560x128.Idx → EReal) (ix2 p q)
      = (a (ix2 p q) : EReal) + ∑ cc : Fin 2560, (A (ix2 p cc) : EReal) * (x (ix2 cc q) : EReal) := by
  unfold k1_pay2
  rw [shapeCast_self, shapeCast_self, shapeCast_self]
  exact congrArg (fun z : EReal => (a (ix2 p q) : EReal) + z) (MatmulAt.matmul_plain_apply (φ₁ := .bf16) (φ₂ := .bf16) none A x p q)

theorem epilogue1_at (s : Vec Ideal S2560x128 .f32) (b : Vec Ideal S1x128 .f32) (w : Vec Ideal S128x128 .f32) (p : Fin 2560) (q : Fin 128) :
    (k1_pay3 s b w : S2560x128.Idx → EReal) (ix2 p q)
      = ∑ k : Fin 128, max ((s (ix2 p k) : EReal) + (b (ix2 (0 : Fin 1) k) : EReal)) 0 * (w (ix2 k q) : EReal) := by
  unfold k1_pay3
  rw [shapeCast_self]
  refine (MatmulAt.matmul_plain_apply (φ₁ := .f32) (φ₂ := .f32) none _ w p q).trans ?_
  refine Finset.sum_congr rfl fun k _ => congrArg (fun z : EReal => z * (w (ix2 k q) : EReal)) ?_
  show max ((s (ix2 p k) : EReal) + broadcastTo S2560x128 b broadcasts_S1x128_S2560x128 (ix2 p k)) (Ideal.ofBits .f32 0x00000000#32) = _
  rw [Ideal.ofBits_zero_f32, broadcastTo_1b_ab_apply]

variable (V : (c : Dev nD) → (b : Ref sig .tc) → Buf (Elt Ideal) ((c : Thread nD τ).loc b)) (c : Dev nD)

abbrev adjArr1 : Vec Ideal S10240x10240 .bf16 := V c main_v47
abbrev xw1Arr1 : Vec Ideal S10240x128 .bf16 := V c main_v58_0
abbrev b1Arr1 : Vec Ideal S1x128 .f32 := V c main_v52
abbrev w2Arr1 : Vec Ideal S128x128 .f32 := V c main_arg4

theorem points1 : cfg1.N = 16 := N_1

theorem whole1 : ∀ t : Fin cfg1.N, (∀ a, win1_2.index t a = 0) ∧ (∀ a, win1_3.index t a = 0) :=
  (by decide +kernel : ∀ t : Fin grid1.N, _)

theorem rows1 : ∀ t : Fin cfg1.N, win1_0.index t 0 = t.val / 4 ∧ win1_0.index t 1 = t.val % 4
    ∧ win1_1.index t 0 = t.val % 4 ∧ win1_1.index t 1 = 0 ∧ win1_4.index t 0 = t.val / 4 ∧ win1_4.index t 1 = 0 :=
  (by decide +kernel : ∀ t : Fin grid1.N, _)

theorem wholeBlk1 (t : Fin cfg1.N) : iblk1 V c 2 t = b1Arr1 V c ∧ iblk1 V c 3 t = w2Arr1 V c :=
  ⟨funext fun y => congrArg (b1Arr1 V c) (funext fun a => Fin.ext (win1_2.rect_emb_val_of_index_zero t a ((whole1 t).1 a) y)),
   funext fun y => congrArg (w2Arr1 V c) (funext fun a => Fin.ext (win1_3.rect_emb_val_of_index_zero t a ((whole1 t).2 a) y))⟩

theorem adjBlk1_at (t : Fin cfg1.N) (p cc : Fin 2560) (r s : Fin 10240)
    (hr : r.val = 2560 * (t.val / 4) + p.val) (hs : s.val = 2560 * (t.val % 4) + cc.val) :
    (iblk1 V c 0 t : S2560x2560.Idx → EReal) (ix2 p cc) = adjArr1 V c (ix2 r s) := by
  have f := rows1 t
  show adjArr1 V c (((cfg1.win 0).blk t).view.emb (ix2 p cc)) = _
  exact congrArg _ (Shape.idx_ext₂ (by show win1_0.index t 0 * 2560 + 1 * p.val = r.val; omega) (by show win1_0.index t 1 * 2560 + 1 * cc.val = s.val; omega))

theorem featBlk1_at (t : Fin cfg1.N) (cc : Fin 2560) (q : Fin 128) (s : Fin 10240)
    (hs : s.val = 2560 * (t.val % 4) + cc.val) :
    (iblk1 V c 1 t : S2560x128.Idx → EReal) (ix2 cc q) = xw1Arr1 V c (ix2 s q) := by
  have f := rows1 t
  show xw1Arr1 V c (((cfg1.win 1).blk t).view.emb (ix2 cc q)) = _
  exact congrArg _ (Shape.idx_ext₂ (by show win1_1.index t 0 * 2560 + 1 * cc.val = s.val; omega) (by show win1_1.index t 1 * 128 + 1 * q.val = q.val; omega))

theorem acc1_last_at (n : ℕ) (h0 : n % 4 = 0) (hn : n + 3 < cfg1.N) (p : Fin 2560) (k : Fin 128) (r : Fin 10240)
    (hr : r.val = 2560 * (n / 4) + p.val) :
    (acc1 V c (n + 3) hn : S2560x128.Idx → EReal) (ix2 p k)
      = ∑ kb : Fin 4, ∑ cc : Fin 2560,
          adjArr1 V c (ix2 r ⟨2560 * kb.val + cc.val, by omega⟩) * xw1Arr1 V c (ix2 ⟨2560 * kb.val + cc.val, by omega⟩ k) :=
  MatmulAt.blockAgg_at (N := cfg1.N) (d := 128) (fun n h => acc1 V c n h) (fun n h => iblk1 V c 0 ⟨n, h⟩) (fun n h => iblk1 V c 1 ⟨n, h⟩)
    (adjArr1 V c) (xw1Arr1 V c)
    (fun n h p cc r s hr hs => adjBlk1_at V c ⟨n, h⟩ p cc r s hr hs)
    (fun n h cc k s hs => featBlk1_at V c ⟨n, h⟩ cc k s hs)
    (fun n h p k hz => (congrFun (acc1_first V c ⟨n, h⟩ hz) _).trans
      ((step1_at _ _ _ p k).trans (congrArg (fun z : EReal => z + _) (reset1_at _))))
    (fun n h p k hne => (congrFun (acc1_step V c ⟨n + 1, h⟩ hne (Nat.lt_of_succ_lt h)) _).trans (step1_at _ _ _ p k))
    n h0 hn p k r hr

def aggArr1 : S10240x128.Idx → EReal := fun i =>
  ∑ k : Fin 128, max ((∑ kb : Fin 4, ∑ cc : Fin 2560,
        adjArr1 V c (ix2 (i 0 : Fin 10240) ⟨2560 * kb.val + cc.val, by omega⟩) * xw1Arr1 V c (ix2 ⟨2560 * kb.val + cc.val, by omega⟩ k))
      + b1Arr1 V c (ix2 (0 : Fin 1) k)) 0 * w2Arr1 V c (ix2 k (i 1 : Fin 128))

theorem agg_flushed1 (t : Fin cfg1.N) (hf : (cfg1.win 4).flush t = true) :
    (dat1 V c).flushed 4 t = ((cfg1.win 4).blk t).view.read (Elt Ideal) (aggArr1 V c) := by
  have h3 : t.val % 4 = 3 := (flush1_4 t).mp hf
  have hN := points1
  have ht := t.isLt
  show (cfg1.win 4).cut (grid1.coords t) ((dat1 V c).after 4 t) = _
  rw [after1_4]
  funext j
  show (k1_pay3 (acc1 V c t.val t.isLt) (iblk1 V c 2 t) (iblk1 V c 3 t) : S2560x128.Idx → EReal) j = aggArr1 V c (((cfg1.win 4).blk t).view.emb j)
  obtain ⟨p, q, rfl⟩ : ∃ (p : Fin 2560) (q : Fin 128), j = ix2 p q := ⟨j 0, j 1, eq_ix2 j⟩
  have f := rows1 t
  have hcol : ((((cfg1.win 4).blk t).view.emb (ix2 p q)) 1 : Fin 128) = q := Fin.ext (by
    show win1_4.index t 1 * 128 + 1 * q.val = _; omega)
  have same : ∀ (u : ℕ) (hu : u < cfg1.N), u = t.val → acc1 V c u hu = acc1 V c t.val t.isLt := fun u hu e => by subst e; rfl
  unfold aggArr1
  rw [hcol]
  refine (epilogue1_at _ _ _ p q).trans (Finset.sum_congr rfl fun k _ => ?_)
  refine congrArg₂ (· * ·) (congrArg (fun z : EReal => max z 0) (congrArg₂ (· + ·) ?_ (congrFun (wholeBlk1 V c t).1 _)))
    (congrFun (wholeBlk1 V c t).2 _)
  rw [← same (t.val - 3 + 3) (by omega) (by omega)]
  exact acc1_last_at V c (t.val - 3) (by omega) (by omega) p k _ (by show win1_4.index t 0 * 2560 + 1 * p.val = _; omega)

-- row r lies in row block r / 2560, whose last point is 4 (r / 2560) + 3
theorem cover1 (i : S10240x128.Idx) :
    ∃ t : Fin cfg1.N, (cfg1.win 4).flush t = true ∧ i ∈ ((cfg1.win 4).blk t).view.set := by
  have hN := points1
  have h0 := idx2_lt0 i
  obtain ⟨t, ht⟩ : ∃ t : Fin cfg1.N, t.val = 4 * ((i 0).val / 2560) + 3 := ⟨⟨_, by omega⟩, rfl⟩
  have f := rows1 t
  have e : ((cfg1.win 4).blk t).view.emb (ix2 ⟨(i 0).val % 2560, Nat.mod_lt _ (by omega)⟩ (i 1)) = i :=
    Shape.idx_ext₂ (by show win1_4.index t 0 * 2560 + 1 * ((i 0).val % 2560) = (i 0).val; omega)
      (by show win1_4.index t 1 * 128 + 1 * (i 1).val = (i 1).val; omega)
  exact ⟨t, (flush1_4 t).mpr (by omega), e ▸ View.emb_mem_set _ _⟩

theorem arr1_xw2 : (dat1 V c).arrAt 4 cfg1.N = aggArr1 V c :=
  (dat1 V c).arrAt_eq_of_cover 4 (aggArr1 V c) (fun t hf => agg_flushed1 V c t hf) cover1

end Cert.KernelIdeal.Val

end
-- ==== Proof.KIVal2Pay.lean ====
import proofs.«421950_j9620726743150_3_alg».proof.Proof.Gen.KernelIdeal.Skeleton
import proofs.«421950_j9620726743150_3_alg».proof.Proof.Spec
import proofs.«421950_j9620726743150_3_alg».proof.Proof.LibMatmulAt
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Idealize.ShloMosaic Idealize.ShloMosaic.ValueIdx

theorem ofBits_neg_inf_f32 : Ideal.ofBits .f32 0xFF800000#32 = (⊥ : EReal) := by
  simp [Ideal.ofBits, Ideal.ieee]

theorem lift_lane (h : S2560x16.Reduces [1] S2560) (p : Fin 2560) (q : Fin 16) :
    h.lift (ix1 p) q = ix2 p q :=
  funext fun c => Fin.ext (by
    match c with
    | ⟨0, _⟩ => rfl
    | ⟨1, _⟩ => rfl)

section Lanes

variable (x : FVec Ideal S2560x16 .f32) (h : S2560x16.Reduces [1] S2560) (hφ : FKind.Formats .f32)

theorem lane_max (hacc : (0xFF800000#32 : BitVec 32) = 0xFF800000#32) (p : Fin 2560) :
    multiReduction .maximumf [1] S2560 x 0xFF800000#32 h hφ hacc (ix1 p)
      = Finset.univ.sup fun q : Fin 16 => x (ix2 p q) := by
  refine (Ideal.multiReduction_maximumf_single x _ h hφ hacc (ix1 p)).trans ?_
  have e : (x ∘ h.lift (ix1 p)) = fun q : Fin 16 => x (ix2 p q) :=
    funext fun q => congrArg x (lift_lane h p q)
  rw [e]
  show Finset.fold max (Ideal.ofBits .f32 0xFF800000#32) (fun q : Fin 16 => x (ix2 p q)) Finset.univ = _
  rw [ofBits_neg_inf_f32]
  rfl

theorem lane_sum (hacc : (0x00000000#32 : BitVec 32) = 0x00000000#32) (p : Fin 2560) :
    multiReduction .add [1] S2560 x 0x00000000#32 h hφ hacc (ix1 p) = ∑ q : Fin 16, x (ix2 p q) := by
  refine (Ideal.multiReduction_add_single x _ h hφ hacc (ix1 p)).trans ?_
  exact Finset.sum_congr rfl fun q _ => congrArg x (lift_lane h p q)

end Lanes

theorem column_cast {α : Type} (v : S2560.Idx → α) (h : S2560.ShapeCasts S2560x1) (p : Fin 2560) :
    shapeCast S2560x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

theorem column_bcast {α : Type} (w : S2560x1.Idx → α) (h : S2560x1.Broadcasts S2560x16) (p : Fin 2560) (q : Fin 16) :
    broadcastTo S2560x16 w h (ix2 p q) = w (ix2 p (0 : Fin 1)) := by
  refine broadcastTo_apply w h (ix2 p q) (ix2 p (0 : Fin 1)) fun ax => ?_
  match ax with
  | ⟨0, _⟩ => rfl
  | ⟨1, _⟩ => rfl

section Cat

variable {α : Type} (a : S2560x16.Idx → α) (b : S2560x2.Idx → α) (z : S2560x110.Idx → α)
    (h : Shape.Concatenates [S2560x16, S2560x2, S2560x110] S2560x128 1) (p : Fin 2560)

theorem cat_left (q : Fin 16) :
    concatenate S2560x128 1 [⟨S2560x16, a⟩, ⟨S2560x2, b⟩, ⟨S2560x110, z⟩] h (ix2 p ⟨q.val, by omega⟩) = a (ix2 p q) := by
  refine concatenate_apply_piece (t := S2560x128) (1 : Fin 2) [⟨S2560x16, a⟩, ⟨S2560x2, b⟩, ⟨S2560x110, z⟩] h
    (ix2 p ⟨q.val, by omega⟩) 0 (by show (0 : ℕ) < 3; omega) S2560x16 a rfl rfl 0 rfl (ix2 p q) (fun b hb => ?_) ?_
  · match b with
    | ⟨0, _⟩ => rfl
    | ⟨1, _⟩ => exact absurd rfl hb
  · show 0 + q.val = q.val
    omega

theorem cat_mid (e : Fin 2) :
    concatenate S2560x128 1 [⟨S2560x16, a⟩, ⟨S2560x2, b⟩, ⟨S2560x110, z⟩] h (ix2 p ⟨16 + e.val, by omega⟩) = b (ix2 p e) := by
  refine concatenate_apply_piece (t := S2560x128) (1 : Fin 2) [⟨S2560x16, a⟩, ⟨S2560x2, b⟩, ⟨S2560x110, z⟩] h
    (ix2 p ⟨16 + e.val, by omega⟩) 1 (by show (1 : ℕ) < 3; omega) S2560x2 b rfl rfl 16 rfl (ix2 p e) (fun c hc => ?_) ?_
  · match c with
    | ⟨0, _⟩ => rfl
    | ⟨1, _⟩ => exact absurd rfl hc
  · rfl

end Cat

def hrow (acc : Vec Ideal S2560x128 .f32) (b2 : Vec Ideal S1x128 .f32) (org : Vec Ideal S2560x128 .f32)
    (p : Fin 2560) (k : Fin 128) : EReal :=
  (acc (ix2 p k) + b2 (ix2 (0 : Fin 1) k)) + org (ix2 p k)

theorem pay1_apply (p : Fin 2560) (k : Fin 128) : (k2_pay1 (F := Ideal)) (ix2 p k) = 0 :=
  Ideal.ofBits_zero_f32

theorem pay2_apply (a : FVec Ideal S2560x128 .f32) (x : FVec Ideal S2560x2560 .bf16) (y : FVec Ideal S2560x128 .bf16)
    (p : Fin 2560) (k : Fin 128) :
    k2_pay2 (F := Ideal) a x y (ix2 p k) = a (ix2 p k) + ∑ cc : Fin 2560, x (ix2 p cc) * y (ix2 cc k) := by
  unfold k2_pay2
  rw [shapeCast_self, shapeCast_self, shapeCast_self]
  exact congrArg (fun z : EReal => (a (ix2 p k) : EReal) + z) (MatmulAt.matmul_plain_apply (φ₁ := .bf16) (φ₂ := .bf16) none x y p k)

variable (acc : FVec Ideal S2560x128 .f32) (b2 : FVec Ideal S1x128 .f32) (org : FVec Ideal S2560x128 .f32)
    (wl : FVec Ideal S128x16 .f32) (bl : FVec Ideal S1x16 .f32) (wd : FVec Ideal S128x2 .f32) (bd : FVec Ideal S1x2 .f32) (p : Fin 2560)

def hvec : FVec Ideal S2560x128 .f32 :=
  addf (addf acc (broadcastTo S2560x128 (shapeCast S1x128 b2 shapeCasts_S1x128_S1x128) broadcasts_S1x128_S2560x128))
    (shapeCast S2560x128 org shapeCasts_S2560x128_S2560x128)

theorem hvec_apply (k : Fin 128) : hvec acc b2 org (ix2 p k) = hrow acc b2 org p k := by
  show (acc (ix2 p k) + broadcastTo S2560x128 (shapeCast S1x128 b2 shapeCasts_S1x128_S1x128) broadcasts_S1x128_S2560x128 (ix2 p k))
      + shapeCast S2560x128 org shapeCasts_S2560x128_S2560x128 (ix2 p k) = _
  rw [shapeCast_self, shapeCast_self, broadcastTo_1b_ab_apply]
  rfl

theorem head_apply {n : ℕ} (h : FVec Ideal S2560x128 .f32) (w : FVec Ideal ⟨2, ![128, n]⟩ .f32) (b : FVec Ideal ⟨2, ![1, n]⟩ .f32)
    (hb : (⟨2, ![1, n]⟩ : Shape).Broadcasts ⟨2, ![2560, n]⟩) (p : Fin 2560) (q : Fin n) :
    addf (FloatOps.matmul (DotDims.plain 2560 128 n) none h w (constant ⟨2, ![2560, n]⟩ .f32 0x00000000#32))
        (broadcastTo ⟨2, ![2560, n]⟩ b hb) (ix2 p q)
      = (∑ k : Fin 128, h (ix2 p k) * w (ix2 k q)) + b (ix2 (0 : Fin 1) q) := by
  show FloatOps.matmul (DotDims.plain 2560 128 n) none h w (constant ⟨2, ![2560, n]⟩ .f32 0x00000000#32) (ix2 p q)
      + broadcastTo ⟨2, ![2560, n]⟩ b hb (ix2 p q) = _
  rw [MatmulAt.matmul_plain_apply, broadcastTo_1b_ab_apply]

def lsmvec (x : FVec Ideal S2560x16 .f32) : FVec Ideal S2560x16 .f32 :=
  have v30 : FVec Ideal S2560 .f32 := multiReduction .maximumf [1] S2560 x 0xFF800000#32 reduces_S2560x16_S2560 (.inl rfl) rfl
  have v32 : FVec Ideal S2560 .f32 := maximumf (broadcast S2560 (Scalar.ofBits .f32 0xFF800000#32)) v30
  have v34 : FVec Ideal S2560x16 .f32 :=
    broadcastTo S2560x16 (shapeCast S2560x1 v32 shapeCasts_S2560_S2560x1) broadcasts_S2560x1_S2560x16
  have v35 : FVec Ideal S2560x16 .f32 := subf x v34
  have v37 : FVec Ideal S2560 .f32 := multiReduction .add [1] S2560 (exp v35) 0x00000000#32 reduces_S2560x16_S2560 (.inl rfl) rfl
  have v39 : FVec Ideal S2560x1 .f32 := log (shapeCast S2560x1 v37 shapeCasts_S2560_S2560x1)
  subf v35 (broadcastTo S2560x16 v39 broadcasts_S2560x1_S2560x16)

theorem rowmax_apply (x : FVec Ideal S2560x16 .f32) (p : Fin 2560) (q : Fin 16) :
    broadcastTo S2560x16 (shapeCast S2560x1 (maximumf (broadcast S2560 (Scalar.ofBits .f32 0xFF800000#32))
        (multiReduction .maximumf [1] S2560 x 0xFF800000#32 reduces_S2560x16_S2560 (.inl rfl) rfl)) shapeCasts_S2560_S2560x1)
      broadcasts_S2560x1_S2560x16 (ix2 p q) = Finset.univ.sup fun q' : Fin 16 => x (ix2 p q') := by
  rw [column_bcast, column_cast]
  show max (Ideal.ofBits .f32 0xFF800000#32)
      (multiReduction .maximumf [1] S2560 x 0xFF800000#32 reduces_S2560x16_S2560 (.inl rfl) rfl (ix1 p)) = _
  rw [ofBits_neg_inf_f32, lane_max]
  exact max_bot_left _

theorem lsmvec_apply (x : FVec Ideal S2560x16 .f32) (p : Fin 2560) (q : Fin 16) :
    lsmvec x (ix2 p q) = Cert.Spec.lsm (fun q' => x (ix2 p q')) q := by
  unfold lsmvec Cert.Spec.lsm
  dsimp only
  show (x (ix2 p q) - _) - broadcastTo S2560x16 _ broadcasts_S2560x1_S2560x16 (ix2 p q) = _
  rw [rowmax_apply, column_bcast]
  show _ - Ideal.log (shapeCast S2560x1 _ shapeCasts_S2560_S2560x1 (ix2 p (0 : Fin 1))) = _
  rw [column_cast, lane_sum]
  refine congrArg (fun s => (x (ix2 p q) - Finset.univ.sup fun q' : Fin 16 => x (ix2 p q')) - Ideal.log s) ?_
  refine Finset.sum_congr rfl fun q' _ => ?_
  show Ideal.exp (x (ix2 p q') - _) = _
  rw [rowmax_apply]

theorem pay3_eq :
    k2_pay3 (F := Ideal) acc b2 org wl bl wd bd
      = concatenate S2560x128 1
          [⟨S2560x16, lsmvec (addf (FloatOps.matmul (DotDims.plain 2560 128 16) none (hvec acc b2 org) wl
                (constant ⟨2, ![2560, 16]⟩ .f32 0x00000000#32))
              (broadcastTo ⟨2, ![2560, 16]⟩ (shapeCast S1x16 bl shapeCasts_S1x16_S1x16) broadcasts_S1x16_S2560x16))⟩,
           ⟨S2560x2, addf (FloatOps.matmul (DotDims.plain 2560 128 2) none (hvec acc b2 org) (shapeCast S128x2 wd shapeCasts_S128x2_S128x2)
                (constant ⟨2, ![2560, 2]⟩ .f32 0x00000000#32))
              (broadcastTo ⟨2, ![2560, 2]⟩ (shapeCast S1x2 bd shapeCasts_S1x2_S1x2) broadcasts_S1x2_S2560x2)⟩,
           ⟨S2560x110, broadcast S2560x110 (Scalar.ofBits .f32 0x00000000#32)⟩]
          concatenates_S2560x16_S2560x2_S2560x110_S2560x128_d1 := rfl

theorem pay3_logp (q : Fin 16) :
    k2_pay3 (F := Ideal) acc b2 org wl bl wd bd (ix2 p ⟨q.val, by omega⟩)
      = Cert.Spec.lsm (fun q' => (∑ k : Fin 128, hrow acc b2 org p k * wl (ix2 k q')) + bl (ix2 (0 : Fin 1) q')) q := by
  rw [pay3_eq, cat_left, lsmvec_apply]
  refine congrArg (fun v => Cert.Spec.lsm v q) (funext fun q' => ?_)
  rw [head_apply, shapeCast_self]
  exact congrArg (· + bl (ix2 (0 : Fin 1) q')) (Finset.sum_congr rfl fun k _ => by rw [hvec_apply])

theorem pay3_deg (e : Fin 2) :
    k2_pay3 (F := Ideal) acc b2 org wl bl wd bd (ix2 p ⟨16 + e.val, by omega⟩)
      = (∑ k : Fin 128, hrow acc b2 org p k * wd (ix2 k e)) + bd (ix2 (0 : Fin 1) e) := by
  rw [pay3_eq, cat_mid, head_apply, shapeCast_self, shapeCast_self]
  exact congrArg (· + bd (ix2 (0 : Fin 1) e)) (Finset.sum_congr rfl fun k _ => by rw [hvec_apply])

end Cert.KernelIdeal.Val

end
-- ==== Proof.KIVal2.lean ====
import proofs.«421950_j9620726743150_3_alg».proof.Proof.KIDat2
import proofs.«421950_j9620726743150_3_alg».proof.Proof.KIVal2Pay
import Idealize.ShloMosaic.Lib.Pipeline.Value

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

abbrev adjArr2 : Vec Ideal S10240x10240 .bf16 := V c main_v47
abbrev xw2Arr2 : Vec Ideal S10240x128 .bf16 := V c main_v59
abbrev b2Arr2 : Vec Ideal S1x128 .f32 := V c main_v53
abbrev origArr2 : Vec Ideal S10240x128 .f32 := V c main_v58_1
abbrev wlinArr2 : Vec Ideal S128x16 .f32 := V c main_arg6
abbrev blinArr2 : Vec Ideal S1x16 .f32 := V c main_v55
abbrev wdegArr2 : Vec Ideal S128x2 .f32 := V c main_v51
abbrev bdegArr2 : Vec Ideal S1x2 .f32 := V c main_v57

theorem N2_eq : cfg2.N = 16 := N_2

theorem whole2 : ∀ t : Fin cfg2.N, (∀ a, win2_2.index t a = 0) ∧ (∀ a, win2_4.index t a = 0) ∧ (∀ a, win2_5.index t a = 0)
    ∧ (∀ a, win2_6.index t a = 0) ∧ (∀ a, win2_7.index t a = 0) :=
  (by decide +kernel : ∀ t : Fin grid2.N, _)

theorem rows2 : ∀ t : Fin cfg2.N, win2_0.index t 0 = t.val / 4 ∧ win2_0.index t 1 = t.val % 4
    ∧ win2_1.index t 0 = t.val % 4 ∧ win2_1.index t 1 = 0 ∧ win2_3.index t 0 = t.val / 4 ∧ win2_3.index t 1 = 0
    ∧ win2_8.index t 0 = t.val / 4 ∧ win2_8.index t 1 = 0 :=
  (by decide +kernel : ∀ t : Fin grid2.N, _)

theorem wholeBlk2 (t : Fin cfg2.N) :
    iblk2 V c 2 t = b2Arr2 V c ∧ iblk2 V c 4 t = wlinArr2 V c ∧ iblk2 V c 5 t = blinArr2 V c
      ∧ iblk2 V c 6 t = wdegArr2 V c ∧ iblk2 V c 7 t = bdegArr2 V c :=
  ⟨funext fun y => congrArg (b2Arr2 V c) (funext fun a => Fin.ext (win2_2.rect_emb_val_of_index_zero t a ((whole2 t).1 a) y)),
   funext fun y => congrArg (wlinArr2 V c) (funext fun a => Fin.ext (win2_4.rect_emb_val_of_index_zero t a ((whole2 t).2.1 a) y)),
   funext fun y => congrArg (blinArr2 V c) (funext fun a => Fin.ext (win2_5.rect_emb_val_of_index_zero t a ((whole2 t).2.2.1 a) y)),
   funext fun y => congrArg (wdegArr2 V c) (funext fun a => Fin.ext (win2_6.rect_emb_val_of_index_zero t a ((whole2 t).2.2.2.1 a) y)),
   funext fun y => congrArg (bdegArr2 V c) (funext fun a => Fin.ext (win2_7.rect_emb_val_of_index_zero t a ((whole2 t).2.2.2.2 a) y))⟩

theorem adjBlk2_at (t : Fin cfg2.N) (p cc : Fin 2560) (r s : Fin 10240)
    (hr : r.val = 2560 * (t.val / 4) + p.val) (hs : s.val = 2560 * (t.val % 4) + cc.val) :
    (iblk2 V c 0 t : S2560x2560.Idx → EReal) (ix2 p cc) = adjArr2 V c (ix2 r s) := by
  have f := rows2 t
  show adjArr2 V c (((cfg2.win 0).blk t).view.emb (ix2 p cc)) = _
  exact congrArg _ (Shape.idx_ext₂ (by show win2_0.index t 0 * 2560 + 1 * p.val = r.val; omega) (by show win2_0.index t 1 * 2560 + 1 * cc.val = s.val; omega))

theorem xw2Blk2_at (t : Fin cfg2.N) (cc : Fin 2560) (q : Fin 128) (s : Fin 10240)
    (hs : s.val = 2560 * (t.val % 4) + cc.val) :
    (iblk2 V c 1 t : S2560x128.Idx → EReal) (ix2 cc q) = xw2Arr2 V c (ix2 s q) := by
  have f := rows2 t
  show xw2Arr2 V c (((cfg2.win 1).blk t).view.emb (ix2 cc q)) = _
  exact congrArg _ (Shape.idx_ext₂ (by show win2_1.index t 0 * 2560 + 1 * cc.val = s.val; omega) (by show win2_1.index t 1 * 128 + 1 * q.val = q.val; omega))

theorem origBlk2_at (t : Fin cfg2.N) (p : Fin 2560) (k : Fin 128) (r : Fin 10240)
    (hr : r.val = 2560 * (t.val / 4) + p.val) :
    (iblk2 V c 3 t : S2560x128.Idx → EReal) (ix2 p k) = origArr2 V c (ix2 r k) := by
  have f := rows2 t
  show origArr2 V c (((cfg2.win 3).blk t).view.emb (ix2 p k)) = _
  exact congrArg _ (Shape.idx_ext₂ (by show win2_3.index t 0 * 2560 + 1 * p.val = r.val; omega) (by show win2_3.index t 1 * 128 + 1 * k.val = k.val; omega))

theorem acc2_last_at (n : ℕ) (h0 : n % 4 = 0) (hn : n + 3 < cfg2.N) (p : Fin 2560) (k : Fin 128) (r : Fin 10240)
    (hr : r.val = 2560 * (n / 4) + p.val) :
    (acc2 V c (n + 3) hn : S2560x128.Idx → EReal) (ix2 p k)
      = ∑ kb : Fin 4, ∑ cc : Fin 2560,
          adjArr2 V c (ix2 r ⟨2560 * kb.val + cc.val, by omega⟩) * xw2Arr2 V c (ix2 ⟨2560 * kb.val + cc.val, by omega⟩ k) :=
  MatmulAt.blockAgg_at (N := cfg2.N) (d := 128) (fun n h => acc2 V c n h) (fun n h => iblk2 V c 0 ⟨n, h⟩) (fun n h => iblk2 V c 1 ⟨n, h⟩)
    (adjArr2 V c) (xw2Arr2 V c)
    (fun n h p cc r s hr hs => adjBlk2_at V c ⟨n, h⟩ p cc r s hr hs)
    (fun n h cc k s hs => xw2Blk2_at V c ⟨n, h⟩ cc k s hs)
    (fun n h p k hz => (congrFun (acc2_first V c ⟨n, h⟩ hz) _).trans
      ((pay2_apply _ _ _ p k).trans (congrArg (fun z : EReal => z + _) (pay1_apply p k))))
    (fun n h p k hne => (congrFun (acc2_step V c ⟨n + 1, h⟩ hne (Nat.lt_of_succ_lt h)) _).trans (pay2_apply _ _ _ p k))
    n h0 hn p k r hr

abbrev outBlk2 (t : Fin cfg2.N) : FVec Ideal S2560x128 .f32 :=
  k2_pay3 (F := Ideal) (acc2 V c t.val t.isLt) (b2Arr2 V c) (iblk2 V c 3 t) (wlinArr2 V c) (blinArr2 V c) (wdegArr2 V c) (bdegArr2 V c)

theorem outBlk2_congr (t t' : Fin cfg2.N) (y y' : S2560x128.Idx) (ht : t = t') (hy : y = y') :
    outBlk2 V c t y = outBlk2 V c t' y' := by
  subst ht; subst hy; rfl

def outAt2 (r : ℕ) (hr : r < 10240) (q : ℕ) (hq : q < 128) : EReal :=
  outBlk2 V c ⟨4 * (r / 2560) + 3, by have := N2_eq; omega⟩ (ix2 ⟨r % 2560, Nat.mod_lt _ (by omega)⟩ ⟨q, hq⟩)

def outArr2 : S10240x128.Idx → EReal := fun i => outAt2 V c (i 0).val (idx2_lt0 i) (i 1).val (idx2_lt1 i)

theorem flushed2_8_eq (t : Fin cfg2.N) (hf : (cfg2.win 8).flush t = true) :
    (dat2 V c).flushed 8 t = ((cfg2.win 8).blk t).view.read (Elt Ideal) (outArr2 V c) := by
  have h3 : t.val % 4 = 3 := (flush2_8 t).mp hf
  have hN := N2_eq
  have h16 := t.isLt
  have f := rows2 t
  obtain ⟨h2, h4, h5, h6, h7⟩ := wholeBlk2 V c t
  show (cfg2.win 8).cut (grid2.coords t) ((dat2 V c).after 8 t) = _
  rw [after2_8, h2, h4, h5, h6, h7]
  funext y
  obtain ⟨p, q, rfl⟩ : ∃ (p : Fin 2560) (q : Fin 128), y = ix2 p q := ⟨y 0, y 1, eq_ix2 y⟩
  show outBlk2 V c t (ix2 p q)
    = outAt2 V c (win2_8.index t 0 * 2560 + 1 * p.val) (by omega) (win2_8.index t 1 * 128 + 1 * q.val) (by omega)
  unfold outAt2
  refine outBlk2_congr V c _ _ _ _ (Fin.ext ?_) (MatmulAt.ix2_eq ?_ ?_)
  · show t.val = 4 * ((win2_8.index t 0 * 2560 + 1 * p.val) / 2560) + 3
    omega
  · show p.val = (win2_8.index t 0 * 2560 + 1 * p.val) % 2560
    omega
  · show q.val = win2_8.index t 1 * 128 + 1 * q.val
    omega

-- row r lies in row block r / 2560, whose last point is 4 (r / 2560) + 3
theorem arrAt2_8_apply (r : Fin 10240) (q : Fin 128) :
    (dat2 V c).arrAt 8 cfg2.N (ix2 r q) = outAt2 V c r.val r.isLt q.val q.isLt := by
  have hN := N2_eq
  obtain ⟨t, ht⟩ : ∃ t : Fin cfg2.N, t.val = 4 * (r.val / 2560) + 3 := ⟨⟨_, by omega⟩, rfl⟩
  have f := rows2 t
  have e : ((cfg2.win 8).blk t).view.emb (ix2 ⟨r.val % 2560, Nat.mod_lt _ (by omega)⟩ q) = ix2 r q :=
    Shape.idx_ext₂ (by show win2_8.index t 0 * 2560 + 1 * (r.val % 2560) = r.val; omega)
      (by show win2_8.index t 1 * 128 + 1 * q.val = q.val; omega)
  exact Dat.arrAt_apply_of_mem (dat2 V c) 8 (outArr2 V c) (flushed2_8_eq V c) cfg2.N t (ix2 r q) t.isLt
    ((flush2_8 t).mpr (by omega)) (e ▸ View.emb_mem_set _ _)

def hid2 (r : Fin 10240) (j : Fin 128) : EReal :=
  ((∑ kb : Fin 4, ∑ cc : Fin 2560,
        adjArr2 V c (ix2 r ⟨2560 * kb.val + cc.val, by omega⟩) * xw2Arr2 V c (ix2 ⟨2560 * kb.val + cc.val, by omega⟩ j))
    + b2Arr2 V c (ix2 (0 : Fin 1) j)) + origArr2 V c (ix2 r j)

theorem hrow_eq_hid2 (r : Fin 10240) (k : Fin 128) (hn : 4 * (r.val / 2560) + 3 < cfg2.N) :
    hrow (acc2 V c (4 * (r.val / 2560) + 3) hn) (b2Arr2 V c) (iblk2 V c 3 ⟨_, hn⟩) ⟨r.val % 2560, Nat.mod_lt _ (by omega)⟩ k
      = hid2 V c r k := by
  unfold hrow hid2
  rw [acc2_last_at V c (4 * (r.val / 2560)) (by omega) hn ⟨r.val % 2560, Nat.mod_lt _ (by omega)⟩ k r (by show r.val = 2560 * (4 * (r.val / 2560) / 4) + r.val % 2560; omega)]
  exact congrArg (_ + ·) (origBlk2_at V c ⟨_, hn⟩ _ k r (by show r.val = 2560 * ((4 * (r.val / 2560) + 3) / 4) + r.val % 2560; omega))

theorem val2_logp (r : Fin 10240) (q : Fin 16) :
    (dat2 V c).arrAt 8 cfg2.N (ix2 r ⟨q.val, by omega⟩)
      = Cert.Spec.lsm (fun q' => (∑ k : Fin 128, hid2 V c r k * wlinArr2 V c (ix2 k q')) + blinArr2 V c (ix2 (0 : Fin 1) q')) q := by
  have hN := N2_eq
  have ht : 4 * (r.val / 2560) + 3 < cfg2.N := by omega
  refine (arrAt2_8_apply V c r ⟨q.val, by omega⟩).trans ?_
  refine (pay3_logp _ _ _ _ _ _ _ ⟨r.val % 2560, Nat.mod_lt _ (by omega)⟩ q).trans ?_
  exact congrArg (fun v => Cert.Spec.lsm v q) (funext fun q' => congrArg (· + blinArr2 V c (ix2 (0 : Fin 1) q'))
    (Finset.sum_congr rfl fun k _ => by rw [hrow_eq_hid2 V c r k ht]))

theorem val2_deg (r : Fin 10240) (e : Fin 2) :
    (dat2 V c).arrAt 8 cfg2.N (ix2 r ⟨16 + e.val, by omega⟩)
      = (∑ k : Fin 128, hid2 V c r k * wdegArr2 V c (ix2 k e)) + bdegArr2 V c (ix2 (0 : Fin 1) e) := by
  have hN := N2_eq
  have ht : 4 * (r.val / 2560) + 3 < cfg2.N := by omega
  refine (arrAt2_8_apply V c r ⟨16 + e.val, by omega⟩).trans ?_
  refine (pay3_deg _ _ _ _ _ _ _ ⟨r.val % 2560, Nat.mod_lt _ (by omega)⟩ e).trans ?_
  exact congrArg (· + bdegArr2 V c (ix2 (0 : Fin 1) e)) (Finset.sum_congr rfl fun k _ => by rw [hrow_eq_hid2 V c r k ht])

end Cert.KernelIdeal.Val

end
-- ==== Proof.EdgeEnds.lean ====
import proofs.«421950_j9620726743150_3_alg».proof.Proof.SpecInp
import Idealize.ShloMosaic.Lib.Affine
import Idealize.ShloMosaic.Lib.StableHlo.Predicate

noncomputable section

namespace Cert.Spec

open Idealize.ShloMosaic Idealize.ShloMosaic.ValueIdx

def endW (a1 : (⟨2, ![2, 640000]⟩ : Shape).Idx → BitVec 32) (row : Fin 2) (e : Fin 650000) : BitVec 32 :=
  if h : e.val < 640000 then a1 (ix2 row ⟨e.val, h⟩) else BitVec.ofNat 32 (e.val - 640000)

def EdgesInRange (a1 : (⟨2, ![2, 640000]⟩ : Shape).Idx → BitVec 32) : Prop :=
  ∀ (row : Fin 2) (e : Fin 640000), 0 ≤ (a1 (ix2 row e)).toInt ∧ (a1 (ix2 row e)).toInt < 10000

variable {a1 : (⟨2, ![2, 640000]⟩ : Shape).Idx → BitVec 32} (hr : EdgesInRange a1) (row : Fin 2) (e : Fin 650000)
include hr

/-- An edge's word is in range, a self loop's word is its small node number: read signed, each is the endpoint. -/
theorem endW_toInt : (endW a1 row e).toInt = (endOf a1 row e : ℤ) := by
  unfold endW endOf
  have := e.isLt
  split
  · next h => exact (Int.toNat_of_nonneg (hr row ⟨e.val, h⟩).1).symm
  · exact StableHlo.Predicate.toInt_ofNat_small _ (by omega)

theorem end_lt : endOf a1 row e < 10000 := by
  unfold endOf
  have := e.isLt
  split
  · next h => have := hr row ⟨e.val, h⟩; unfold nodeOf; omega
  · omega

/-- A non-negative word is not below zero, so the wrap keeps it. -/
theorem wrap_endW :
    Scalar.select (IntOp.cmpi .slt (endW a1 row e) 0#32) (IntOp.addi (endW a1 row e) 10000#32) (endW a1 row e)
      = endW a1 row e := by
  have hn : ¬ IntOp.cmpi .slt (endW a1 row e) 0#32 = 1#1 := by
    rw [IntOp.cmpi_slt, endW_toInt hr, show (0#32 : BitVec 32).toInt = 0 by decide]
    omega
  rw [eq_zero_of_ne_one hn, select_zero]

theorem clamp_endW : min (endW a1 row e).toInt.toNat (10000 - 1) = endOf a1 row e := by
  rw [endW_toInt hr]
  have := end_lt hr row e
  omega

end Cert.Spec

end
-- ==== Proof.PreFacts.lean ====
import proofs.«421950_j9620726743150_3_alg».proof.Proof.Inputs
import proofs.«421950_j9620726743150_3_alg».proof.Proof.EdgeEnds
import Idealize.ShloMosaic.Lib.ReduceAll
import Idealize.ShloMosaic.Lib.StableHlo.Predicate

noncomputable section

namespace Cert.KernelIdeal.Val

open Cert.KernelIdeal Idealize.ShloMosaic Idealize.ShloMosaic.ValueIdx Idealize.SL.Sem

instance scalarIdx_subsingleton : Subsingleton (⟨0, ![]⟩ : Shape).Idx := ⟨fun _ _ => funext fun d => d.elim0⟩

/-- An entry that passes max x (−x) < +∞ is neither infinity. -/
theorem real_of_finite (x : EReal) (h : Ideal.cmp .olt (max x (-x)) (Ideal.ofBits .f32 0x7F800000#32) = 1#1) :
    ∃ r : ℝ, x = (r : EReal) := by
  rw [show Ideal.ofBits .f32 0x7F800000#32 = (⊤ : EReal) by simp [Ideal.ofBits, Ideal.ieee]] at h
  induction x using EReal.rec with
  | bot => exact absurd h (by simp [Ideal.cmp])
  | coe r => exact ⟨r, rfl⟩
  | top => exact absurd h (by simp [Ideal.cmp])

theorem range_of_tests (a : BitVec 32)
    (h : IntOp.andi (IntOp.cmpi .sge a 0#32) (IntOp.cmpi .slt a 10000#32) = 1#1) : 0 ≤ a.toInt ∧ a.toInt < 10000 := by
  rw [IntOp.andi_eq_one, IntOp.cmpi_sge, IntOp.cmpi_slt, show (0#32 : BitVec 32).toInt = 0 by decide,
    show (10000#32 : BitVec 32).toInt = 10000 by decide] at h
  exact h

open Cert.Pre_finite_inputs

variable [hP : Cert.Pre_finite_inputs.Facts] (m : (ℓ : Loc nD τ sig) → Buf (Elt Ideal) ℓ)
  (h : Cert.Pre_KernelIdeal m) (c : Dev nD)
include h

/-- The precondition is the conjunction of thirteen finiteness tests and the edge array's range test. -/
theorem facts_of_pre :
    (inpK m c).Good ∧ Cert.Spec.EdgesInRange (m ((c.tc : Thread nD τ).loc main_arg1)) := by
  have e := congrFun (h c) ix0
  dsimp only [Cert.Pre_finite_inputs.fn, fn_part1, fn_part2, fn_part3, fn_part4] at e
  obtain ⟨e, h1⟩ := IntOp.andi_eq_one.1 e
  obtain ⟨e, h13⟩ := IntOp.andi_eq_one.1 e
  obtain ⟨e, h12⟩ := IntOp.andi_eq_one.1 e
  iterate 6 obtain ⟨e, -⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  have r : Cert.Spec.EdgesInRange (m ((c.tc : Thread nD τ).loc main_arg1)) :=
    fun row e' => range_of_tests _ (Host.reduce_andi_all _ _ _ _ ix0 h1 (ix2 row e'))
  exact ⟨
    { x_real := fun i k => real_of_finite _ (Host.reduce_andi_all _ _ _ _ ix0 h0 (ix2 i k))
      W1_real := fun k j => real_of_finite _ (Host.reduce_andi_all _ _ _ _ ix0 h2 (ix2 k j))
      b1_real := fun j => real_of_finite _ (Host.reduce_andi_all _ _ _ _ ix0 h3 (ix1 j))
      W2_real := fun k j => real_of_finite _ (Host.reduce_andi_all _ _ _ _ ix0 h4 (ix2 k j))
      b2_real := fun j => real_of_finite _ (Host.reduce_andi_all _ _ _ _ ix0 h5 (ix1 j))
      Wdown_real := fun k j => real_of_finite _ (Host.reduce_andi_all _ _ _ _ ix0 h12 (ix2 k j))
      bdown_real := fun j => real_of_finite _ (Host.reduce_andi_all _ _ _ _ ix0 h13 (ix1 j))
      src_lt := Cert.Spec.end_lt r 0
      dst_lt := Cert.Spec.end_lt r 1 }, r⟩

theorem range_of_pre (row : Fin 2) (e : Fin 640000) :
    0 ≤ ((m ((c.tc : Thread nD τ).loc main_arg1) : (⟨2, ![2, 640000]⟩ : Shape).Idx → BitVec 32) (ix2 row e)).toInt
    ∧ ((m ((c.tc : Thread nD τ).loc main_arg1) : (⟨2, ![2, 640000]⟩ : Shape).Idx → BitVec 32) (ix2 row e)).toInt < 10000 :=
  (facts_of_pre m h c).2 row e

theorem good_of_pre : (inpK m c).Good := (facts_of_pre m h c).1

end Cert.KernelIdeal.Val

end
-- ==== Proof.KIResults.lean ====
import proofs.«421950_j9620726743150_3_alg».proof.Proof.KISegs
import proofs.«421950_j9620726743150_3_alg».proof.Proof.KIHostVal
import proofs.«421950_j9620726743150_3_alg».proof.Proof.KIVal0
import proofs.«421950_j9620726743150_3_alg».proof.Proof.KIVal1
import proofs.«421950_j9620726743150_3_alg».proof.Proof.KIVal2
import proofs.«421950_j9620726743150_3_alg».proof.Proof.PreFacts

noncomputable section

open scoped BigOperators

namespace Cert.KernelIdeal.Val

open Cert.KernelIdeal Cert.KernelIdeal.Gen Cert.KernelIdeal.Hand Idealize.ShloMosaic Idealize.ShloMosaic.ValueIdx
open Idealize.SL.Sem Idealize.ShloMosaic.TcCoe

section Entry

variable (m : (ℓ : Loc nD τ sig) → Buf (Elt Ideal) ℓ) (c : Dev nD)

local notation "𝕀" => inpK m c

theorem V3_xpad (r : Fin 10240) (k : Fin 128) :
    featArr0 (V3 m) c (ix2 r k) = Cert.Spec.xpad 𝕀 r.val k := H3_xpad m c r k

theorem V3_W1 (k j : Fin 128) : w1Arr0 (V3 m) c (ix2 k j) = (𝕀).W1 k j :=
  congrFun (H3_arg2 m c) (ix2 k j)

theorem V3_Wdown (k j : Fin 128) : wdArr0 (V3 m) c (ix2 k j) = (𝕀).Wdown k j :=
  congrFun (H3_arg12 m c) (ix2 k j)

theorem V3_bdown (j : Fin 128) : bdArr0 (V3 m) c (ix2 (0 : Fin 1) j) = (𝕀).bdown j :=
  H3_bdown m c j

theorem xw_eq (r : Fin 10240) (j : Fin 128) :
    xw1Arr1 (V4 m) c (ix2 r j) = Cert.Spec.xw 𝕀 r.val j := by
  have key : projArr0 (V3 m) c (ix2 r j) = Cert.Spec.xw 𝕀 r.val j := by
    unfold Cert.Spec.xw projArr0
    exact Finset.sum_congr rfl fun k _ => congrArg₂ (· * ·) (V3_xpad m c r k) (V3_W1 m c k j)
  exact (congrFun ((W4_arr m c 4 : V4 (F := Ideal) m c main_v58_0 = _).trans (arr0_xw1 (V3 m) c)) (ix2 r j)).trans key

theorem orig_eq (r : Fin 10240) (j : Fin 128) :
    (V4 (F := Ideal) m c main_v58_1 : Vec Ideal S10240x128 .f32) (ix2 r j) = Cert.Spec.orig 𝕀 r.val j := by
  have key : skipArr0 (V3 m) c (ix2 r j) = Cert.Spec.orig 𝕀 r.val j := by
    unfold Cert.Spec.orig skipArr0
    exact congrArg₂ (· + ·) (Finset.sum_congr rfl fun k _ => congrArg₂ (· * ·) (V3_xpad m c r k) (V3_Wdown m c k j)) (V3_bdown m c j)
  exact (congrFun ((W4_arr m c 5 : V4 (F := Ideal) m c main_v58_1 = _).trans (arr0_orig (V3 m) c)) (ix2 r j)).trans key

theorem V4_adj (hr : InRange m c) (i c' : Fin 10240) :
    adjArr1 (V4 m) c (ix2 i c') = Cert.Spec.adj 𝕀 i.val c'.val :=
  (congrFun (W4_of_ne m c main_v47 (by decide) : V4 (F := Ideal) m c main_v47 = H3 m c (Proc.devRef .tc main_v47)) (ix2 i c')).trans
    (H3_adj m c hr i c')

theorem V4_b1 (j : Fin 128) : b1Arr1 (V4 m) c (ix2 (0 : Fin 1) j) = (𝕀).b1 j :=
  (congrFun (W4_of_ne m c main_v52 (by decide) : V4 (F := Ideal) m c main_v52 = H3 m c (Proc.devRef .tc main_v52)) _).trans (H3_b1 m c j)

theorem V4_W2 (k j : Fin 128) : w2Arr1 (V4 m) c (ix2 k j) = (𝕀).W2 k j :=
  (congrFun (W4_of_ne m c main_arg4 (by decide) : V4 (F := Ideal) m c main_arg4 = H3 m c (Proc.devRef .tc main_arg4)) _).trans
    (congrFun (H3_arg4 m c) (ix2 k j))

theorem xw2K_eq (hr : InRange m c) (r : Fin 10240) (j : Fin 128) :
    xw2Arr2 (V5 m) c (ix2 r j) = Cert.Spec.xw2K 𝕀 r.val j := by
  have key : aggArr1 (V4 m) c (ix2 r j) = Cert.Spec.xw2K 𝕀 r.val j := by
    unfold Cert.Spec.xw2K Cert.Spec.blockAgg aggArr1
    exact Finset.sum_congr rfl fun k _ => congrArg₂ (· * ·) (congrArg (fun z : EReal => max z 0) (congrArg₂ (· + ·)
      (Finset.sum_congr rfl fun kb _ => Finset.sum_congr rfl fun cc _ => congrArg₂ (· * ·) (V4_adj m c hr _ _) (xw_eq m c _ k))
      (V4_b1 m c k))) (V4_W2 m c k j)
  exact (congrFun ((W5_arr m c 4 : V5 (F := Ideal) m c main_v59 = _).trans (arr1_xw2 (V4 m) c)) (ix2 r j)).trans key

theorem V5_adj (hr : InRange m c) (i c' : Fin 10240) :
    adjArr2 (V5 m) c (ix2 i c') = Cert.Spec.adj 𝕀 i.val c'.val := by
  have h : V5 (F := Ideal) m c main_v47 = V4 m c main_v47 :=
    (W5_arr m c 0).trans (((dat1 (V4 m) c).arrAt_in 0 rfl _).trans (A_eq1 (V4 m) c 0))
  exact (congrFun h (ix2 i c')).trans (V4_adj m c hr i c')

theorem V5_orig (r : Fin 10240) (j : Fin 128) :
    origArr2 (V5 m) c (ix2 r j) = Cert.Spec.orig 𝕀 r.val j :=
  (congrFun (W5_of_ne m c main_v58_1 (by decide) : V5 (F := Ideal) m c main_v58_1 = V4 m c main_v58_1) (ix2 r j)).trans (orig_eq m c r j)

theorem V5_of_H3 (b : Ref sig .tc) (h1 : ∀ w, Pipeline.arrRef spec1 w ≠ b) (h0 : ∀ w, Pipeline.arrRef spec0 w ≠ b) :
    V5 (F := Ideal) m c b = H3 m c (Proc.devRef .tc b) :=
  (W5_of_ne m c b h1).trans (W4_of_ne m c b h0)

theorem V5_b2 (j : Fin 128) : b2Arr2 (V5 m) c (ix2 (0 : Fin 1) j) = (𝕀).b2 j :=
  (congrFun (V5_of_H3 m c main_v53 (by decide) (by decide)) _).trans (H3_b2 m c j)

theorem V5_Wlin (k : Fin 128) (q : Fin 16) : wlinArr2 (V5 m) c (ix2 k q) = (𝕀).Wlin k q :=
  (congrFun (V5_of_H3 m c main_arg6 (by decide) (by decide)) _).trans (congrFun (H3_arg6 m c) (ix2 k q))

theorem V5_blin (q : Fin 16) : blinArr2 (V5 m) c (ix2 (0 : Fin 1) q) = (𝕀).blin q :=
  (congrFun (V5_of_H3 m c main_v55 (by decide) (by decide)) _).trans (H3_blin m c q)

theorem V5_wdeg (k : Fin 128) (p : Fin 2) :
    wdegArr2 (V5 m) c (ix2 k p) = if p = 0 then (𝕀).Wd2 k else (𝕀).Wd3 k :=
  (congrFun (V5_of_H3 m c main_v51 (by decide) (by decide)) _).trans (H3_wdeg m c k p)

theorem V5_bdeg (p : Fin 2) :
    bdegArr2 (V5 m) c (ix2 (0 : Fin 1) p) = if p = 0 then (𝕀).bd2 else (𝕀).bd3 :=
  (congrFun (V5_of_H3 m c main_v57 (by decide) (by decide)) _).trans (H3_bdeg m c p)

theorem hid2_eq (hr : InRange m c) (r : Fin 10240) (j : Fin 128) :
    hid2 (V5 m) c r j = Cert.Spec.hK 𝕀 r.val j := by
  unfold hid2 Cert.Spec.hK Cert.Spec.blockAgg
  exact congrArg₂ (· + ·) (congrArg₂ (· + ·)
    (Finset.sum_congr rfl fun kb _ => Finset.sum_congr rfl fun cc _ => congrArg₂ (· * ·) (V5_adj m c hr _ _) (xw2K_eq m c hr _ j))
    (V5_b2 m c j)) (V5_orig m c r j)

-- columns 16 and 17 hold the two degree heads of the hidden state
theorem deg_eq (hr : InRange m c) (i : Fin 10000) (e : Fin 2) :
    (W6 (F := Ideal) m c (Proc.devRef .tc main_v60) : S10240x128.Idx → EReal) (ix2 ⟨i.val, by omega⟩ ⟨16 + e.val, by omega⟩)
      = (∑ k : Fin 128, Cert.Spec.hK 𝕀 i.val k * (if e = 0 then (𝕀).Wd2 k else (𝕀).Wd3 k))
        + (if e = 0 then (𝕀).bd2 else (𝕀).bd3) :=
  (congrFun (W6_arr m c 8 : W6 (F := Ideal) m c (Proc.devRef .tc main_v60) = (dat2 (V5 m) c).arrAt 8 cfg2.N) _).trans
    ((val2_deg (V5 m) c ⟨i.val, by omega⟩ e).trans (congrArg₂ (· + ·)
      (Finset.sum_congr rfl fun k _ => congrArg₂ (· * ·) (hid2_eq m c hr _ k) (V5_wdeg m c k e)) (V5_bdeg m c e)))

end Entry

theorem kernel_res1 [hP : Cert.Pre_finite_inputs.Facts] (m : (ℓ : Loc nD τ sig) → Buf (Elt Ideal) ℓ)
    (hpre : Cert.Pre_KernelIdeal m) (c : Dev nD) (i : Fin 10000) (q : Fin 16) :
    (Cert.KernelIdeal.Hand.W7 (F := Ideal) m c (Proc.devRef .tc main_v61) : _ → EReal) (ix2 i q)
      = Cert.Spec.res1 (inpK m c) (Cert.Spec.hK (inpK m c) i.val) q := by
  have hr : InRange m c := range_of_pre m hpre c
  refine (tail_v61 (W6 m c) i q).trans ((congrFun (W6_arr m c 8 : W6 (F := Ideal) m c (Proc.devRef .tc main_v60) = (dat2 (V5 m) c).arrAt 8 cfg2.N) _).trans
    ((val2_logp (V5 m) c ⟨i.val, by omega⟩ q).trans ?_))
  unfold Cert.Spec.res1
  exact congrArg (fun v => Cert.Spec.lsm v q) (funext fun q' => congrArg₂ (· + ·)
    (Finset.sum_congr rfl fun k _ => congrArg₂ (· * ·) (hid2_eq m c hr _ k) (V5_Wlin m c k q')) (V5_blin m c q'))

theorem kernel_res2 [hP : Cert.Pre_finite_inputs.Facts] (m : (ℓ : Loc nD τ sig) → Buf (Elt Ideal) ℓ)
    (hpre : Cert.Pre_KernelIdeal m) (c : Dev nD) (i : Fin 10000) :
    (Cert.KernelIdeal.Hand.W7 (F := Ideal) m c (Proc.devRef .tc main_v63) : _ → EReal) (ix1 i)
      = Cert.Spec.res2 (inpK m c) (Cert.Spec.hK (inpK m c) i.val) :=
  (tail_v63 (W6 m c) i).trans (deg_eq m c (range_of_pre m hpre c) i 0)

theorem kernel_res3 [hP : Cert.Pre_finite_inputs.Facts] (m : (ℓ : Loc nD τ sig) → Buf (Elt Ideal) ℓ)
    (hpre : Cert.Pre_KernelIdeal m) (c : Dev nD) (i : Fin 10000) :
    (Cert.KernelIdeal.Hand.W7 (F := Ideal) m c (Proc.devRef .tc main_v65) : _ → EReal) (ix1 i)
      = Cert.Spec.res3 (inpK m c) (Cert.Spec.hK (inpK m c) i.val) :=
  (tail_v65 (W6 m c) i).trans (deg_eq m c (range_of_pre m hpre c) i 1)

end Cert.KernelIdeal.Val

end
-- ==== Proof.RefImports.lean ====
import proofs.«421950_j9620726743150_3_alg».proof.Proof.RefRun
import proofs.«421950_j9620726743150_3_alg».proof.Proof.RefRead
-- ==== Proof.RefHid.lean ====
import proofs.«421950_j9620726743150_3_alg».proof.Proof.Inputs
import proofs.«421950_j9620726743150_3_alg».proof.Proof.RefImports

noncomputable section

namespace Cert.ReferenceIdeal.Val

open Cert.ReferenceIdeal Idealize.ShloMosaic Idealize.ShloMosaic.ValueIdx Idealize.SL.Sem

theorem ix2_of_vals {n0 n1 : Nat} (p : (⟨2, ![n0, n1]⟩ : Shape).Idx) (a : Fin n0) (b : Fin n1)
    (h0 : (p 0).val = a.val) (h1 : (p 1).val = b.val) : p = ix2 a b :=
  funext fun d => Fin.ext (by match d with | ⟨0, _⟩ => exact h0 | ⟨1, _⟩ => exact h1)

theorem ix1_of_val {n : Nat} (p : (⟨1, ![n]⟩ : Shape).Idx) (a : Fin n) (h0 : (p 0).val = a.val) : p = ix1 a :=
  funext fun d => Fin.ext (by match d with | ⟨0, _⟩ => exact h0)

def hid71 (m : (ℓ : Loc nD τ sig) → Buf (Elt Ideal) ℓ) (c : Dev nD) : Vec Ideal S10000x128 .f32 :=
  Cert.ReferenceIdeal.Read.val_main_v71 (F := Ideal) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg12))
    (m ((c.tc : Thread nD τ).loc main_arg13))

end Cert.ReferenceIdeal.Val

end
-- ==== Proof.RefNorm.lean ====
import proofs.«421950_j9620726743150_3_alg».proof.Proof.RefHid
import proofs.«421950_j9620726743150_3_alg».proof.Proof.EdgeOps
import proofs.«421950_j9620726743150_3_alg».proof.Proof.EdgeEnds
import Idealize.ShloMosaic.Lib.IdealHost

noncomputable section

open scoped BigOperators

namespace Cert.ReferenceIdeal.Val

open Cert.ReferenceIdeal Cert.ReferenceIdeal.Gen Cert.ReferenceIdeal.Read Idealize.ShloMosaic
  Idealize.ShloMosaic.ValueIdx Cert.Spec

variable {x1 : (⟨2, ![2, 640000]⟩ : Shape).Idx → BitVec 32}

theorem endCol_eq (v : (⟨1, ![640000]⟩ : Shape).Idx → BitVec 32) (row : Fin 2)
    (hv : ∀ e : Fin 640000, v (ix1 e) = x1 (ix2 row e)) (e : Fin 650000) :
    concatenate S650000 0 [⟨S640000, v⟩, ⟨S10000, val_main_v0 (F := Ideal)⟩] concatenates_S640000_S10000_S650000_d0
      (ix1 e) = endW x1 row e := by
  unfold endW
  have := e.isLt
  split
  · next h => exact (Cert.EdgeOps.concat2_left _ _ _ e h).trans (hv _)
  · next h => exact Cert.EdgeOps.concat2_right _ _ _ e (Nat.le_of_not_lt h) (by omega)

theorem srcW_eq (e : Fin 650000) : val_main_v3 (F := Ideal) x1 (ix1 e) = endW x1 0 e :=
  endCol_eq _ 0 (fun e => by
    rw [val_main_v2_apply, val_main_v1_apply]
    exact congrArg x1 (ix2_of_vals _ _ _ rfl (Nat.mod_eq_of_lt e.isLt))) e

theorem dstW_eq (e : Fin 650000) : val_main_v6 (F := Ideal) x1 (ix1 e) = endW x1 1 e :=
  endCol_eq _ 1 (fun e => by
    rw [val_main_v5_apply, val_main_v4_apply]
    exact congrArg x1 (ix2_of_vals _ _ _ rfl (Nat.mod_eq_of_lt e.isLt))) e

/-- The source column wrapped and kept as one-entry rows; every take by source is this same term. -/
theorem wrapSrc (hr : EdgesInRange x1) (e : Fin 650000) :
    val_main_v22 (F := Ideal) x1 (ix2 e (0 : Fin 1)) = endW x1 0 e := by
  rw [val_main_v22_apply, show idx_main_v22 (ix2 e (0 : Fin 1)) = ix1 e from ix1_of_val _ _ rfl, val_main_v21_apply,
    val_main_v18_apply, val_main_v20_apply, val_main_v17_apply, val_main_c_apply, val_main_v19_apply, val_main_c_4_apply,
    srcW_eq]
  exact wrap_endW hr 0 e

theorem wrapDst (hr : EdgesInRange x1) (e : Fin 650000) :
    val_main_v29 (F := Ideal) x1 (ix2 e (0 : Fin 1)) = endW x1 1 e := by
  rw [val_main_v29_apply, show idx_main_v29 (ix2 e (0 : Fin 1)) = ix1 e from ix1_of_val _ _ rfl, val_main_v28_apply,
    val_main_v25_apply, val_main_v27_apply, val_main_v24_apply, val_main_c_5_apply, val_main_v26_apply, val_main_c_6_apply,
    dstW_eq]
  exact wrap_endW hr 1 e

/-- The destination column kept as one-entry rows; both layers' segment sums read this same term. -/
theorem dstCol (e : Fin 650000) : val_main_v48 (F := Ideal) x1 (ix2 e (0 : Fin 1)) = endW x1 1 e := by
  rw [val_main_v48_apply, show idx_main_v48 (ix2 e (0 : Fin 1)) = ix1 e from ix1_of_val _ _ rfl, dstW_eq]

theorem segSum_read (x : (⟨1, ![10000]⟩ : Shape).Idx → EReal) (idx : (⟨2, ![650000, 1]⟩ : Shape).Idx → BitVec 32)
    (upd : (⟨1, ![650000]⟩ : Shape).Idx → EReal) (i : Fin 10000) :
    Host.scatterAdd (F := Ideal) (φ := .f32) scatter_S10000_S650000x1_S650000_n_0_0_1 x idx upd (ix1 i)
      = x (ix1 i) + ∑ e : Fin 650000, if (idx (ix2 e (0 : Fin 1))).toInt = (i.val : ℤ) then upd (ix1 e) else 0 :=
  Cert.EdgeOps.segSum_apply _ x idx upd i

variable (I : Inp) (hr : EdgesInRange x1) (hd : I.dst = endOf x1 1)
include hr hd

theorem deg_eq (i : Fin 10000) : val_main_v10 (F := Ideal) x1 (ix1 i) = deg I i.val := by
  unfold val_main_v10
  refine (segSum_read _ _ _ i).trans ?_
  rw [val_main_v8_apply, val_main_cst_0_apply, Ideal.ofBits_def, Ideal.ofBits_zero_f32, zero_add]
  unfold deg
  refine Finset.sum_congr rfl fun e _ => ?_
  rw [val_main_v9_apply, show idx_main_v9 (ix2 e (0 : Fin 1)) = ix1 e from ix1_of_val _ _ rfl, dstW_eq, endW_toInt hr,
    val_main_v7_apply, val_main_cst_apply, Ideal.ofBits_def, Ideal.ofBits_one_f32, hd]
  exact if_congr Nat.cast_inj rfl rfl

theorem dis_eq (i : Fin 10000) : val_main_v16 (F := Ideal) x1 (ix1 i) = dis I i.val := by
  rw [val_main_v16_apply, val_main_v12_apply, val_main_v15_apply, val_main_v14_apply, val_main_v11_apply,
    val_main_cst_1_apply, val_main_v13_apply, val_main_cst_2_apply, val_main_call0_v1_apply, val_main_call0_v0_apply,
    val_main_cst_3_apply, deg_eq I hr hd]
  simp only [Ideal.ofBits_def, Ideal.ofBits_zero_f32, Ideal.ofBits_one_f32, Ideal.maximumf_def,
    Ideal.hostUnary_rsqrt_def]
  unfold dis
  show Scalar.select (Ideal.cmp .ogt (deg I i.val) 0) _ _ = _
  unfold Ideal.cmp
  by_cases h : (0 : EReal) < deg I i.val
  · simp only [h, decide_true, if_true]
    exact select_one _ _
  · simp only [h, decide_false, if_false]
    exact select_zero _ _

/-- An endpoint's word, clamped as a take clamps it, is the endpoint, a node number. -/
theorem take_dis (w : (⟨2, ![650000, 1]⟩ : Shape).Idx → BitVec 32)
    (row : Fin 2) (hw : ∀ e, w (ix2 e (0 : Fin 1)) = endW x1 row e) (e : Fin 650000) :
    Host.gather gather_S10000_S650000x1_S650000_n_0_n_n_0_1_1 (val_main_v16 (F := Ideal) x1) w (ix1 e)
      = dis I (endOf x1 row e) := by
  have h := StableHlo.Predicate.gather_take gather_S10000_S650000x1_S650000_n_0_n_n_0_1_1 rfl rfl rfl rfl
    (val_main_v16 (F := Ideal) x1) w e (by norm_num)
  rw [show (Shape.Idx.ofFin e : (⟨1, ![650000]⟩ : Shape).Idx) = ix1 e from ix1_of_val _ _ rfl] at h
  refine h.trans (Eq.trans (congrArg _ (ix1_of_val _ _ ?_)) (dis_eq I hr hd ⟨endOf x1 row e, end_lt hr row e⟩))
  show min (w (StableHlo.Predicate.ixP e)).toInt.toNat (10000 - 1) = endOf x1 row e
  rw [show (StableHlo.Predicate.ixP e : (⟨2, ![650000, 1]⟩ : Shape).Idx) = ix2 e (0 : Fin 1) from
    ix2_of_vals _ _ _ rfl rfl, hw]
  exact clamp_endW hr row e

theorem nrm_eq (hs : I.src = endOf x1 0) (e : Fin 650000) :
    val_main_v31 (F := Ideal) x1 (ix1 e) = nrm I e := by
  rw [val_main_v31_apply]
  unfold val_main_v23 val_main_v30 nrm
  rw [take_dis I hr hd _ 0 (wrapSrc hr) e, take_dis I hr hd _ 1 (wrapDst hr) e, hs, hd]
  rfl

end Cert.ReferenceIdeal.Val

end
-- ==== Proof.LibRowTake.lean ====
import Idealize.ShloMosaic.Lib.ValueIdx

namespace Cert.LibRowTake

open Idealize.ShloMosaic Idealize.ShloMosaic.ValueIdx

variable {α : Type} {N D n w : Nat}

abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

theorem gather_rowTake_apply (hN : 0 < N)
    (wf : GatherDims.WF ⟨2, ![N, D]⟩ ⟨2, ![n, 1]⟩ ⟨2, ![n, D]⟩ [1] [0] [] [0] [] 1 ![1, D]) (x : (⟨2, ![N, D]⟩ : Shape).Idx → α) (idx : IVec ⟨2, ![n, 1]⟩ w)
    (r : Fin n) (c : Fin D) :
    Host.gather (rowTakeDims N D n wf) x idx (ix2 r c)
      = x (ix2 ⟨min (idx (ix2 r (0 : Fin 1))).toInt.toNat (N - 1), by omega⟩ c) := by
  have h10 : ¬ (1 : Fin 2) = 0 := by decide
  have m0 : (0 : Fin 2) ∈ (rowTakeDims N D n wf).startIndexMap := List.mem_singleton.2 rfl
  have m1 : (1 : Fin 2) ∉ (rowTakeDims N D n wf).startIndexMap := fun h => h10 (List.mem_singleton.1 h)
  have k0 : (0 : Fin 2) ∉ (rowTakeDims N D n wf).sKept := fun h => ((GatherDims.mem_sKept _ _).1 h).1 m0
  have k1 : (1 : Fin 2) ∈ (rowTakeDims N D n wf).sKept := (GatherDims.mem_sKept _ _).2 ⟨m1, List.not_mem_nil⟩
  show x ((rowTakeDims N D n wf).operandIdx (ix2 r c) idx) = _
  congr 1
  funext a
  refine Fin.ext ?_
  show (rowTakeDims N D n wf).start (ix2 r c) idx a + (rowTakeDims N D n wf).batchCoord (ix2 r c) a
      + (rowTakeDims N D n wf).offCoord (ix2 r c) a = _
  rw [GatherDims.batchCoord_eq_zero _ _ _ List.not_mem_nil, Nat.add_zero]
  unfold GatherDims.start GatherDims.offCoord
  revert a
  refine Fin.forall_fin_two.2 ⟨?_, ?_⟩
  · rw [dif_pos m0, dif_neg k0, Nat.add_zero]
    have hsi : (rowTakeDims N D n wf).siIdx (ix2 r c) ⟨List.idxOf (0 : Fin 2) (rowTakeDims N D n wf).startIndexMap,
        List.idxOf_lt_length_iff.2 m0⟩ = ix2 r (0 : Fin 1) :=
      funext fun b => Fin.ext (by match b with | ⟨0, _⟩ => rfl | ⟨1, _⟩ => rfl)
    rw [hsi]
    rfl
  · rw [dif_neg m1, dif_pos k1, Nat.zero_add]
    rfl

end Cert.LibRowTake
-- ==== Proof.RefAgg.lean ====
import proofs.«421950_j9620726743150_3_alg».proof.Proof.RefNorm
import proofs.«421950_j9620726743150_3_alg».proof.Proof.LibRowTake

noncomputable section

open scoped BigOperators

namespace Cert.ReferenceIdeal.Val

open Cert.ReferenceIdeal Cert.ReferenceIdeal.Gen Cert.ReferenceIdeal.Read Idealize.ShloMosaic
  Idealize.ShloMosaic.ValueIdx Cert.Spec Idealize.SL.Sem

variable {x0 : S10000x128.Idx → EReal} {x1 : S2x640000.Idx → BitVec 32} {x2 : S128x128.Idx → EReal}
  {x3 : S128.Idx → EReal} {x4 : S128x128.Idx → EReal} {x5 : S128.Idx → EReal} {x6 : S128x16.Idx → EReal}
  {x7 : S16.Idx → EReal} {x8 : S128x1.Idx → EReal} {x9 : S1.Idx → EReal} {x10 : S128x1.Idx → EReal}
  {x11 : S1.Idx → EReal} {x12 : S128x128.Idx → EReal} {x13 : S128.Idx → EReal}

local notation "𝕀" => mkInp x0 x1 x2 x3 x4 x5 x6 x7 x8 x9 x10 x11 x12 x13

theorem segSumRows_read (z : (⟨2, ![10000, 128]⟩ : Shape).Idx → EReal) (dw : (⟨2, ![650000, 1]⟩ : Shape).Idx → BitVec 32)
    (upd : (⟨2, ![650000, 128]⟩ : Shape).Idx → EReal) (i : Fin 10000) (j : Fin 128) :
    Host.scatterAdd (F := Ideal) (φ := .f32) scatter_S10000x128_S650000x1_S650000x128_1_0_0_1 z dw upd (ix2 i j)
      = z (ix2 i j) + ∑ e : Fin 650000, if (dw (ix2 e (0 : Fin 1))).toInt = (i.val : ℤ) then upd (ix2 e j) else 0 :=
  Cert.EdgeOps.segSumRows_apply _ z dw upd i j

theorem rowTake_read (y : (⟨2, ![10000, 128]⟩ : Shape).Idx → EReal) (sw : (⟨2, ![650000, 1]⟩ : Shape).Idx → BitVec 32)
    (e : Fin 650000) (j : Fin 128) :
    Host.gather gather_S10000x128_S650000x1_S650000x128_1_0_n_n_0_1_1128 y sw (ix2 e j)
      = y (ix2 ⟨min (sw (ix2 e (0 : Fin 1))).toInt.toNat (10000 - 1), by omega⟩ j) :=
  Cert.LibRowTake.gather_rowTake_apply (by norm_num) _ y sw e j

/-- The edge weights laid along the rows of the messages; both layers use this same term. -/
theorem wt_eq (hr : EdgesInRange x1) (e : Fin 650000) (j : Fin 128) :
    val_main_v45 (F := Ideal) x1 (ix2 e j) = nrm 𝕀 e := by
  rw [val_main_v45_apply, val_main_v44_apply,
    show idx_main_v44 (idx_main_v45 (ix2 e j)) = ix1 e from ix1_of_val _ _ rfl]
  exact nrm_eq 𝕀 hr rfl rfl e

theorem agg_eq (hr : EdgesInRange x1) (y : S10000x128.Idx → EReal) (Y : ℕ → Fin 128 → EReal)
    (hy : ∀ (r : Fin 10000) (j : Fin 128), y (ix2 r j) = Y r.val j) (i : Fin 10000) (j : Fin 128) :
    Host.scatterAdd (F := Ideal) (φ := .f32) scatter_S10000x128_S650000x1_S650000x128_1_0_0_1 (val_main_v47 (F := Ideal))
      (val_main_v48 (F := Ideal) x1) (mulf (F := Ideal) (φ := .f32)
        (Host.gather gather_S10000x128_S650000x1_S650000x128_1_0_n_n_0_1_1128 y (val_main_v42 (F := Ideal) x1))
        (val_main_v45 (F := Ideal) x1)) (ix2 i j)
      = edgeAgg 𝕀 Y i.val j := by
  refine (segSumRows_read _ _ _ i j).trans ?_
  rw [val_main_v47_apply, val_main_cst_9_apply, Ideal.ofBits_def, Ideal.ofBits_zero_f32, zero_add]
  unfold edgeAgg
  refine Finset.sum_congr rfl fun e _ => ?_
  rw [dstCol, endW_toInt hr]
  refine if_congr Nat.cast_inj ?_ rfl
  show Host.gather gather_S10000x128_S650000x1_S650000x128_1_0_n_n_0_1_1128 y (val_main_v42 (F := Ideal) x1) (ix2 e j)
    * val_main_v45 (F := Ideal) x1 (ix2 e j) = Y (endOf x1 0 e) j * nrm 𝕀 e
  rw [wt_eq hr, ← hy ⟨endOf x1 0 e, end_lt hr 0 e⟩ j]
  congr 1
  refine (rowTake_read y _ e j).trans (congrArg y (ix2_of_vals _ _ _ ?_ rfl))
  exact (congrArg (fun w : BitVec 32 => min w.toInt.toNat (10000 - 1)) (wrapSrc hr e)).trans (clamp_endW hr 0 e)

theorem xw_eq (r : Fin 10000) (j : Fin 128) : val_main_v36 (F := Ideal) x0 x2 (ix2 r j) = xw 𝕀 r.val j := by
  rw [val_main_v36_apply]
  unfold xw xpad
  refine Finset.sum_congr rfl fun k _ => ?_
  rw [dif_pos r.isLt, show lidx_main_v36 (ix2 r j) k = ix2 r k from ix2_of_vals _ _ _ rfl rfl,
    show ridx_main_v36 (ix2 r j) k = ix2 k j from ix2_of_vals _ _ _ rfl rfl]
  rfl

theorem agg1_eq (hr : EdgesInRange x1) (i : Fin 10000) (j : Fin 128) :
    val_main_v49 (F := Ideal) x0 x1 x2 (ix2 i j) = edgeAgg 𝕀 (xw 𝕀) i.val j := by
  unfold val_main_v49 val_main_v46 val_main_v43
  exact agg_eq hr _ _ xw_eq i j

theorem xw2_eq (hr : EdgesInRange x1) (i : Fin 10000) (j : Fin 128) :
    val_main_v54 (F := Ideal) x0 x1 x2 x3 x4 (ix2 i j) = xw2R 𝕀 i.val j := by
  rw [val_main_v54_apply]
  unfold xw2R
  refine Finset.sum_congr rfl fun k _ => ?_
  rw [show lidx_main_v54 (ix2 i j) k = ix2 i k from ix2_of_vals _ _ _ rfl rfl,
    show ridx_main_v54 (ix2 i j) k = ix2 k j from ix2_of_vals _ _ _ rfl rfl,
    val_main_v53_apply, val_main_v52_apply, agg1_eq hr, val_main_v51_apply, val_main_v50_apply,
    val_main_call1_v0_apply, val_main_call1_cst_apply,
    show idx_main_v50 (idx_main_v51 (ix2 i k)) = ix1 k from ix1_of_val _ _ rfl]
  simp only [Ideal.ofBits_def, Ideal.ofBits_zero_f32, Ideal.maximumf_def, Ideal.addf_def]
  rfl

theorem agg2_eq (hr : EdgesInRange x1) (i : Fin 10000) (j : Fin 128) :
    val_main_v67 (F := Ideal) x0 x1 x2 x3 x4 (ix2 i j) = edgeAgg 𝕀 (xw2R 𝕀) i.val j := by
  unfold val_main_v67 val_main_v64 val_main_v61
  exact agg_eq hr _ _ (xw2_eq hr) i j

theorem orig_eq (r : Fin 10000) (j : Fin 128) :
    val_main_v35 (F := Ideal) x0 x12 x13 (ix2 r j) = orig 𝕀 r.val j := by
  rw [val_main_v35_apply, val_main_v32_apply, val_main_v34_apply, val_main_v33_apply,
    show idx_main_v33 (idx_main_v34 (ix2 r j)) = ix1 j from ix1_of_val _ _ rfl]
  unfold orig xpad
  simp only [Ideal.addf_def]
  congr 1
  refine Finset.sum_congr rfl fun k _ => ?_
  rw [dif_pos r.isLt, show lidx_main_v32 (ix2 r j) k = ix2 r k from ix2_of_vals _ _ _ rfl rfl,
    show ridx_main_v32 (ix2 r j) k = ix2 k j from ix2_of_vals _ _ _ rfl rfl]
  rfl

theorem hidden_eq (hr : EdgesInRange x1) (i : Fin 10000) (j : Fin 128) :
    val_main_v71 (F := Ideal) x0 x1 x2 x3 x4 x5 x12 x13 (ix2 i j) = hR 𝕀 i.val j := by
  rw [val_main_v71_apply, val_main_v70_apply, agg2_eq hr, orig_eq, val_main_v69_apply, val_main_v68_apply,
    show idx_main_v68 (idx_main_v69 (ix2 i j)) = ix1 j from ix1_of_val _ _ rfl]
  rfl

abbrev InRange (m : (ℓ : Loc nD τ sig) → Buf (Elt Ideal) ℓ) (c : Dev nD) : Prop := ∀ (row : Fin 2) (e : Fin 640000),
    0 ≤ ((m ((c.tc : Thread nD τ).loc main_arg1) : (⟨2, ![2, 640000]⟩ : Shape).Idx → BitVec 32) (ix2 row e)).toInt
    ∧ ((m ((c.tc : Thread nD τ).loc main_arg1) : (⟨2, ![2, 640000]⟩ : Shape).Idx → BitVec 32) (ix2 row e)).toInt < 10000

theorem hid71_eq (m : (ℓ : Loc nD τ sig) → Buf (Elt Ideal) ℓ) (c : Dev nD) (hr : InRange m c) (i : Fin 10000)
    (j : Fin 128) : hid71 m c (ix2 i j) = Cert.Spec.hR (inpR m c) i.val j :=
  hidden_eq hr i j

end Cert.ReferenceIdeal.Val

end
-- ==== Proof.RowMax.lean ====
import Idealize.ShloMosaic.PureOps.Ideal.Laws
import Idealize.ShloMosaic.Lib.ValueIdx

noncomputable section

namespace Cert.RowMax

open Idealize.ShloMosaic Idealize.ShloMosaic.ValueIdx

/-- The fold over a row's entries from the least element is the row's supremum. -/
theorem rowMax_apply {R C : Nat} (h' : (⟨2, ![R, C]⟩ : Shape).ReducesTo [1] ⟨1, ![R]⟩)
    (h : (⟨2, ![R, C]⟩ : Shape).Reduces [1] ⟨1, ![R]⟩) (hu : 0 < (⟨0, ![]⟩ : Shape).numel)
    (x : (⟨2, ![R, C]⟩ : Shape).Idx → EReal) (init : (⟨0, ![]⟩ : Shape).Idx → EReal)
    (hinit : init (Shape.Idx.first hu) = ⊥) (i : Fin R) :
    Host.reduce (FloatOps.maximumf (F := Ideal) (φ := .f32)) x init h' hu (ix1 i)
      = Finset.univ.sup fun q : Fin C => x (ix2 i q) := by
  rw [Host.reduce_eq_fold_single (FloatOps.maximumf (F := Ideal) (φ := .f32)) x init h' h hu (ix1 i), hinit]
  have e : (x ∘ h.lift (ix1 i)) = fun q : Fin C => x (ix2 i q) := funext fun q => congrArg x <| funext fun a =>
    Fin.ext <| by
      show h.liftVal (ix1 i) q.val a = (ix2 i q a).val
      unfold Shape.Reduces.liftVal
      match a with
      | ⟨0, _⟩ => rfl
      | ⟨1, _⟩ => rfl
  rw [e]
  rfl

end Cert.RowMax

end
-- ==== Proof.RefHeads.lean ====
import proofs.«421950_j9620726743150_3_alg».proof.Proof.RefHid
import proofs.«421950_j9620726743150_3_alg».proof.Proof.RowMax

noncomputable section

namespace Cert.ReferenceIdeal.Val

open Cert.ReferenceIdeal Idealize.ShloMosaic Idealize.ShloMosaic.ValueIdx Idealize.SL.Sem
open Cert.ReferenceIdeal.Read Cert.ReferenceIdeal.Gen

theorem negInf_f32 : Ideal.ofBits .f32 0xFF800000#32 = (⊥ : EReal) := by simp [Ideal.ofBits, Ideal.ieee]

section Stages

variable {x0 : S10000x128.Idx → EReal} {x1 : S2x640000.Idx → BitVec 32} {x2 : S128x128.Idx → EReal}
  {x3 : S128.Idx → EReal} {x4 : S128x128.Idx → EReal} {x5 : S128.Idx → EReal} {x6 : S128x16.Idx → EReal}
  {x7 : S16.Idx → EReal} {x8 : S128x1.Idx → EReal} {x9 : S1.Idx → EReal} {x12 : S128x128.Idx → EReal}
  {x13 : S128.Idx → EReal}

local notation "H71" => val_main_v71 (F := Ideal) x0 x1 x2 x3 x4 x5 x12 x13
local notation "V75" => val_main_v75 (F := Ideal) x0 x1 x2 x3 x4 x5 x6 x7 x12 x13

theorem v75_at (i : Fin 10000) (q : Fin 16) :
    V75 (ix2 i q) = (∑ k : Fin 128, H71 (ix2 i k) * x6 (ix2 k q)) + x7 (ix1 q) := by
  rw [val_main_v75_apply, val_main_v72_apply, val_main_v74_apply, val_main_v73_apply]
  exact congrArg₂ (· + ·) (Finset.sum_congr rfl fun k _ => congrArg₂ (· * ·)
    (congrArg _ (ix2_of_vals _ _ _ rfl rfl)) (congrArg _ (ix2_of_vals _ _ _ rfl rfl))) (congrArg _ (ix1_of_val _ _ rfl))

/-- The row maximum is first joined with −∞ and the sum of exponentials started from zero: neither changes it. -/
theorem v76_at (i : Fin 10000) (q : Fin 16) :
    val_main_v76 (F := Ideal) x0 x1 x2 x3 x4 x5 x6 x7 x12 x13 (ix2 i q) = Cert.Spec.lsm (fun q' => (V75 (ix2 i q') : EReal)) q := by
  have rowmax : val_main_call2_v2 (F := Ideal) x0 x1 x2 x3 x4 x5 x6 x7 x12 x13 (ix1 i)
      = Finset.univ.sup fun q : Fin 16 => (V75 (ix2 i q) : EReal) := by
    rw [val_main_call2_v2_apply, val_main_call2_v1_apply, val_main_call2_cst_0_apply]
    unfold val_main_call2_v0
    rw [Cert.RowMax.rowMax_apply (R := 10000) (C := 16) reducesTo_S10000x16_S10000_d1 (by decide) h_S_ _ _
      ((val_main_call2_cst_apply _).trans negInf_f32) i]
    show max (Ideal.ofBits .f32 0xFF800000#32) _ = _
    rw [negInf_f32, max_bot_left]
  have shifted : ∀ q : Fin 16, val_main_call2_v5 (F := Ideal) x0 x1 x2 x3 x4 x5 x6 x7 x12 x13 (ix2 i q)
      = (V75 (ix2 i q) : EReal) - Finset.univ.sup fun q' : Fin 16 => (V75 (ix2 i q') : EReal) := fun q => by
    rw [val_main_call2_v5_apply, val_main_call2_v4_apply, val_main_call2_v3_apply,
      show idx_main_call2_v3 (idx_main_call2_v4 (ix2 i q)) = ix1 i from ix1_of_val _ _ rfl, rowmax]
    rfl
  rw [val_main_v76_apply, val_main_call2_v10_apply,
    show idx_main_call2_v10 (ix2 i q) = ix2 i (0 : Fin 1) from ix2_of_vals _ _ _ rfl rfl,
    shifted, val_main_call2_v9_apply, val_main_call2_v8_apply, val_main_call2_v7_apply, val_main_call2_cst_1_apply]
  simp only [Ideal.hostUnary_log_def, Ideal.ofBits_def, Ideal.ofBits_zero_f32, zero_add]
  unfold Cert.Spec.lsm
  refine congrArg₂ (· - ·) rfl (congrArg Ideal.log (Finset.sum_congr rfl fun q' _ => ?_))
  rw [show idx_main_call2_v7 (idx_main_call2_v8 (ix2 i (0 : Fin 1))) q' = ix2 i q' from ix2_of_vals _ _ _ rfl rfl,
    val_main_call2_v6_apply, shifted]
  simp only [Ideal.hostUnary_exp_def]

/-- A degree head: the hidden row times the head's one column, plus its bias; both heads are this one term. -/
theorem v81_at (i : Fin 10000) :
    val_main_v81 (F := Ideal) x0 x1 x2 x3 x4 x5 x8 x9 x12 x13 (ix1 i)
      = (∑ k : Fin 128, H71 (ix2 i k) * x8 (ix2 k (0 : Fin 1))) + x9 (ix1 (0 : Fin 1)) := by
  rw [val_main_v81_apply, val_main_v80_apply, val_main_v77_apply, val_main_v79_apply, val_main_v78_apply]
  exact congrArg₂ (· + ·) (Finset.sum_congr rfl fun k _ => congrArg₂ (· * ·)
    (congrArg _ (ix2_of_vals _ _ _ (Nat.div_one _) rfl)) (congrArg _ (ix2_of_vals _ _ _ rfl rfl)))
    (congrArg _ (ix1_of_val _ _ rfl))

end Stages

variable (m : (ℓ : Loc nD τ sig) → Buf (Elt Ideal) ℓ) (c : Dev nD)

theorem heads_res1 (i : Fin 10000) (q : Fin 16) :
    (Cert.ReferenceIdeal.Value.res_main_v76 m c : _ → EReal) (ix2 i q)
      = Cert.Spec.res1 (inpR m c) (fun k => hid71 m c (ix2 i k)) q := by
  rw [val_main_v76_eq, v76_at]
  exact congrArg (fun v => Cert.Spec.lsm v q) (funext fun q' => v75_at i q')

theorem heads_res2 (i : Fin 10000) :
    (Cert.ReferenceIdeal.Value.res_main_v81 m c) (ix1 i) = Cert.Spec.res2 (inpR m c) (fun k => hid71 m c (ix2 i k)) := by
  rw [val_main_v81_eq, v81_at]; rfl

theorem heads_res3 (i : Fin 10000) :
    (Cert.ReferenceIdeal.Value.res_main_v86 m c) (ix1 i) = Cert.Spec.res3 (inpR m c) (fun k => hid71 m c (ix2 i k)) := by
  rw [val_main_v86_eq]; exact v81_at i

end Cert.ReferenceIdeal.Val

end
-- ==== Proof.RefVal.lean ====
import proofs.«421950_j9620726743150_3_alg».proof.Proof.RefAgg
import proofs.«421950_j9620726743150_3_alg».proof.Proof.RefHeads

noncomputable section

namespace Cert.ReferenceIdeal.Val

open Cert.ReferenceIdeal Idealize.ShloMosaic Idealize.ShloMosaic.ValueIdx Idealize.SL.Sem

variable (m : (ℓ : Loc nD τ sig) → Buf (Elt Ideal) ℓ) (c : Dev nD) (hr : InRange m c) (i : Fin 10000)
include hr

theorem hid71_row : (fun k : Fin 128 => hid71 m c (ix2 i k)) = Cert.Spec.hR (inpR m c) i.val :=
  funext fun k => hid71_eq m c hr i k

/-- Each result is the specification's head of the node's hidden row, and that row is the edge-by-edge one. -/
theorem ref_res1 (q : Fin 16) :
    (Cert.ReferenceIdeal.Value.res_out0 m c : (⟨2, ![10000, 16]⟩ : Shape).Idx → EReal) (ix2 i q)
      = Cert.Spec.res1 (inpR m c) (Cert.Spec.hR (inpR m c) i.val) q :=
  hid71_row m c hr i ▸ heads_res1 m c i q

theorem ref_res2 :
    (Cert.ReferenceIdeal.Value.res_out1 m c : (⟨1, ![10000]⟩ : Shape).Idx → EReal) (ix1 i)
      = Cert.Spec.res2 (inpR m c) (Cert.Spec.hR (inpR m c) i.val) :=
  hid71_row m c hr i ▸ heads_res2 m c i

theorem ref_res3 :
    (Cert.ReferenceIdeal.Value.res_out2 m c : (⟨1, ![10000]⟩ : Shape).Idx → EReal) (ix1 i)
      = Cert.Spec.res3 (inpR m c) (Cert.Spec.hR (inpR m c) i.val) :=
  hid71_row m c hr i ▸ heads_res3 m c i

end Cert.ReferenceIdeal.Val

end
-- ==== Proof.Bridge.lean ====
import proofs.«421950_j9620726743150_3_alg».proof.Proof.Spec

noncomputable section

namespace Cert.Spec

open Idealize.ShloMosaic

def IsReal (a : EReal) : Prop := ∃ r : ℝ, a = (r : EReal)

theorem isReal_zero : IsReal 0 := ⟨0, rfl⟩

theorem IsReal.add {a b : EReal} : IsReal a → IsReal b → IsReal (a + b) := by
  rintro ⟨x, rfl⟩ ⟨y, rfl⟩
  exact ⟨x + y, (EReal.coe_add x y).symm⟩

theorem IsReal.mul {a b : EReal} : IsReal a → IsReal b → IsReal (a * b) := by
  rintro ⟨x, rfl⟩ ⟨y, rfl⟩
  exact ⟨x * y, (EReal.coe_mul x y).symm⟩

theorem IsReal.max {a b : EReal} (ha : IsReal a) (hb : IsReal b) : IsReal (max a b) := by
  rcases max_choice a b with h | h <;> rw [h] <;> assumption

theorem IsReal.ite {p : Prop} [Decidable p] {a b : EReal} (ha : IsReal a) (hb : IsReal b) :
    IsReal (if p then a else b) := by
  split <;> assumption

theorem isReal_sum {ι : Type*} (s : Finset ι) (f : ι → EReal) (h : ∀ i ∈ s, IsReal (f i)) :
    IsReal (∑ i ∈ s, f i) :=
  Finset.sum_induction f IsReal (fun _ _ => IsReal.add) isReal_zero h

theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Over the reals, distribute each column's factor and swap the sums: an edge's source is exactly one column. -/
theorem scatter_gather {E K C : Type*} [Fintype E] [Fintype K] [Fintype C]
    (P : E → Prop) [DecidablePred P] (s : E → ℕ) (col : K → C → ℕ)
    (hcol : ∀ k c k' c', col k c = col k' c' → k = k' ∧ c = c')
    (hs : ∀ e, ∃ k c, col k c = s e)
    (f : E → EReal) (hf : ∀ e, IsReal (f e)) (y : ℕ → EReal) (hy : ∀ c, IsReal (y c)) :
    ∑ k, ∑ c, (∑ e, if P e ∧ s e = col k c then f e else 0) * y (col k c)
      = ∑ e, if P e then y (s e) * f e else 0 := by
  choose fr hfr using hf
  choose yr hyr using hy
  have h : ∑ k, ∑ c, (∑ e, if P e ∧ s e = col k c then fr e else 0) * yr (col k c)
      = ∑ e, if P e then yr (s e) * fr e else 0 := by
    simp_rw [Finset.sum_mul, ite_mul, zero_mul]
    rw [Finset.sum_congr rfl fun k _ => Finset.sum_comm, Finset.sum_comm]
    refine Finset.sum_congr rfl fun e _ => ?_
    obtain ⟨k0, c0, h0⟩ := hs e
    rw [Fintype.sum_eq_single k0 fun k hk => Finset.sum_eq_zero fun c _ =>
        if_neg fun h => hk (hcol _ _ _ _ (h0.trans h.2)).1.symm,
      Fintype.sum_eq_single c0 fun c hc => if_neg fun h => hc (hcol _ _ _ _ (h0.trans h.2)).2.symm, h0]
    by_cases hp : P e <;> simp [hp, mul_comm]
  have h := congrArg (fun r : ℝ => (r : EReal)) h
  simp only [coe_sum, EReal.coe_mul, apply_ite Real.toEReal, EReal.coe_zero, ← hfr, ← hyr] at h
  exact h

variable (I : Inp)

theorem isReal_deg (i : ℕ) : IsReal (deg I i) :=
  isReal_sum _ _ fun _ _ => IsReal.ite ⟨1, rfl⟩ isReal_zero

/-- A degree is real, so its maximum with one is a positive real, whose reciprocal square root is real. -/
theorem isReal_dis (i : ℕ) : IsReal (dis I i) := by
  refine IsReal.ite ?_ isReal_zero
  obtain ⟨d, hd⟩ := isReal_deg I i
  rw [hd, show max ((d : ℝ) : EReal) 1 = ((max d 1 : ℝ) : EReal) from (EReal.coe_strictMono.monotone.map_max).symm,
    Ideal.rsqrt_coe, if_neg (not_lt.mpr (le_trans zero_le_one (le_max_right d 1))),
    if_neg (lt_of_lt_of_le one_pos (le_max_right d 1)).ne']
  exact ⟨_, rfl⟩

theorem isReal_nrm (e : Fin 650000) : IsReal (nrm I e) :=
  (isReal_dis I _).mul (isReal_dis I _)

theorem isReal_blockAgg (y : ℕ → Fin 128 → EReal) (hy : ∀ c k, IsReal (y c k)) (r : ℕ) (j : Fin 128) :
    IsReal (blockAgg I y r j) :=
  isReal_sum _ _ fun _ _ => isReal_sum _ _ fun _ _ =>
    (isReal_sum _ _ fun e _ => (isReal_nrm I e).ite isReal_zero).mul (hy _ _)

variable (hI : I.Good)
include hI

theorem isReal_xw (r : ℕ) (j : Fin 128) : IsReal (xw I r j) :=
  isReal_sum _ _ fun k _ => IsReal.mul (by unfold xpad; split; exacts [hI.x_real _ _, isReal_zero]) (hI.W1_real k j)

theorem isReal_xw2K (r : ℕ) (j : Fin 128) : IsReal (xw2K I r j) :=
  isReal_sum _ _ fun k _ =>
    (((isReal_blockAgg I (xw I) (isReal_xw I hI) r k).add (hI.b1_real k)).max isReal_zero).mul (hI.W2_real k j)

/-- The block columns number the columns below 10240 once each, and every source is below 10000. -/
theorem blockAgg_eq_edgeAgg (y : ℕ → Fin 128 → EReal) (hy : ∀ c k, IsReal (y c k))
    (r : ℕ) (j : Fin 128) : blockAgg I y r j = edgeAgg I y r j :=
  scatter_gather (fun e => I.dst e = r) I.src (fun (kb : Fin 4) (cc : Fin 2560) => 2560 * kb.val + cc.val)
    (fun k c k' c' h => by constructor <;> apply Fin.ext <;> omega)
    (fun e => ⟨⟨I.src e / 2560, by have := hI.src_lt e; omega⟩, ⟨I.src e % 2560, Nat.mod_lt _ (by norm_num)⟩,
      Nat.div_add_mod _ 2560⟩)
    (nrm I) (isReal_nrm I) (fun c => y c j) (fun c => hy c j)

theorem hK_eq_hR (i : ℕ) (hi : i < 10000) (j : Fin 128) : hK I i j = hR I i j := by
  have h2 : xw2K I = xw2R I := funext fun r => funext fun k =>
    Finset.sum_congr rfl fun k' _ => by rw [blockAgg_eq_edgeAgg I hI (xw I) (isReal_xw I hI) r k']
  unfold hK hR
  rw [blockAgg_eq_edgeAgg I hI (xw2K I) (isReal_xw2K I hI) i j, h2]

end Cert.Spec

end
-- ==== Proof.lean ====
import proofs.«421950_j9620726743150_3_alg».proof.Defs
import proofs.«421950_j9620726743150_3_alg».proof.Proof.Gen.Kernel
import proofs.«421950_j9620726743150_3_alg».proof.Proof.Gen.KernelIdeal
import proofs.«421950_j9620726743150_3_alg».proof.Proof.Gen.ReferenceIdeal
import proofs.«421950_j9620726743150_3_alg».proof.Proof.Gen.Pre_finite_inputs
import proofs.«421950_j9620726743150_3_alg».proof.Proof.KSegs
import proofs.«421950_j9620726743150_3_alg».proof.Proof.KISegs
import proofs.«421950_j9620726743150_3_alg».proof.Proof.KIResults
import proofs.«421950_j9620726743150_3_alg».proof.Proof.RefImports
import proofs.«421950_j9620726743150_3_alg».proof.Proof.RefVal
import proofs.«421950_j9620726743150_3_alg».proof.Proof.Bridge
import proofs.«421950_j9620726743150_3_alg».proof.Proof.PreFacts
import proofs.«421950_j9620726743150_3_alg».proof.Proof.Inputs
import Idealize.ShloMosaic.Lib.ValueIdx
import Idealize.ShloMosaic.Adequacy
import Idealize.ShloMosaic.Init

noncomputable section

namespace Cert.Proof

open Idealize.ShloMosaic Idealize.ShloMosaic.TcCoe Idealize.ShloMosaic.ValueIdx Idealize.SL.Sem

theorem eq_of_ix2 {n0 n1 : Nat} (f g : (⟨2, ![n0, n1]⟩ : Shape).Idx → EReal) (h : ∀ i q, f (ix2 i q) = g (ix2 i q)) : f = g :=
  funext fun y => by rw [eq_ix2 y]; exact h _ _
theorem eq_of_ix1 {n : Nat} (f g : (⟨1, ![n]⟩ : Shape).Idx → EReal) (h : ∀ i, f (ix1 i) = g (ix1 i)) : f = g :=
  funext fun y => by rw [eq_ix1 y]; exact h _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal m) (c : Dev Cert.KernelIdeal.nD)
  (hin : Cert.ReferenceIdeal.Val.inpR m' c = Cert.KernelIdeal.Val.inpK m c) (hrange : Cert.ReferenceIdeal.Val.InRange m' c)

include hpre in
/-- The dense blocked aggregation is the edge-by-edge one on real inputs whose edge endpoints are node numbers: a finite
    sum of real edge weights distributes over the product with a real feature. -/
theorem hidden_agree (i : Fin 10000) :
    Cert.Spec.hK (Cert.KernelIdeal.Val.inpK m c) i.val = Cert.Spec.hR (Cert.KernelIdeal.Val.inpK m c) i.val :=
  funext fun j => Cert.Spec.hK_eq_hR _ (Cert.KernelIdeal.Val.good_of_pre m hpre c) i.val i.isLt j

include hpre hin hrange in
/-- Each of the reference's three results is the kernel's: both are one head of one hidden state. -/
theorem res1_agree : Cert.ReferenceIdeal.Value.res_main_v76 (F := Ideal) m' c
      = Cert.KernelIdeal.Hand.W7 (F := Ideal) m c (Proc.devRef .tc Cert.KernelIdeal.main_v61) :=
  eq_of_ix2 (n0 := 10000) (n1 := 16) _ _ fun i q => (Cert.ReferenceIdeal.Val.ref_res1 m' c hrange i q).trans <| by
    rw [hin, ← hidden_agree m hpre c i]; exact (Cert.KernelIdeal.Val.kernel_res1 m hpre c i q).symm
include hpre hin hrange in
theorem res2_agree : Cert.ReferenceIdeal.Value.res_main_v81 (F := Ideal) m' c
      = Cert.KernelIdeal.Hand.W7 (F := Ideal) m c (Proc.devRef .tc Cert.KernelIdeal.main_v63) :=
  eq_of_ix1 (n := 10000) _ _ fun i => (Cert.ReferenceIdeal.Val.ref_res2 m' c hrange i).trans <| by
    rw [hin, ← hidden_agree m hpre c i]; exact (Cert.KernelIdeal.Val.kernel_res2 m hpre c i).symm
include hpre hin hrange in
theorem res3_agree : Cert.ReferenceIdeal.Value.res_main_v86 (F := Ideal) m' c
      = Cert.KernelIdeal.Hand.W7 (F := Ideal) m c (Proc.devRef .tc Cert.KernelIdeal.main_v65) :=
  eq_of_ix1 (n := 10000) _ _ fun i => (Cert.ReferenceIdeal.Val.ref_res3 m' c hrange i).trans <| by
    rw [hin, ← hidden_agree m hpre c i]; exact (Cert.KernelIdeal.Val.kernel_res3 m hpre c i).symm

theorem frame_p : Cert.frame_Kernel := fun m ρ _ =>
  (θ_run _ _ _).mono (fun _ h c => (h c).2.2.2) (Cert.Kernel.Hand.run_all (F := Bits) m ρ)
theorem frame_pi : Cert.frame_KernelIdeal := fun m ρ _ =>
  (θ_run _ _ _).mono (fun _ h c => (h c).2.2.2) (Cert.KernelIdeal.Hand.run_all (F := Ideal) m ρ)
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs run; the kernel's three results are the last boundary's contents, and the reference's are the same arrays:
    the two memories agree on the arguments, so the inputs read off them are the same and the edge array is in range. -/
theorem algebraic : Cert.algebraic_KernelIdeal_ReferenceIdeal := by
  intro m ρ m' ρ' hpre hagree
  have hin (c) : Cert.ReferenceIdeal.Val.inpR m' c = Cert.KernelIdeal.Val.inpK m c := by
    obtain ⟨h0, h1, h2, h3, h4, h5, h6, h7, h8, h9, h10, h11, h12, h13⟩ := hagree c
    unfold Cert.ReferenceIdeal.Val.inpR Cert.KernelIdeal.Val.inpK
    rw [h0, h1, h2, h3, h4, h5, h6, h7, h8, h9, h10, h11, h12, h13]
  have hrange (c) : Cert.ReferenceIdeal.Val.InRange m' c := fun row e => by
    rw [(hagree c).2.1]; exact Cert.KernelIdeal.Val.range_of_pre m hpre c row e
  exact ⟨_, _, _, Cert.KernelIdeal.Hand.run_all (F := Ideal) m ρ,
    (θ_run Cert.ReferenceIdeal.defs _ _).mono (fun r h c =>
      ⟨(h c).1.trans (res1_agree m m' hpre c (hin c) (hrange c)), (h c).2.1.trans (res2_agree m m' hpre c (hin c) (hrange c)),
       (h c).2.2.1.trans (res3_agree m m' hpre c (hin c) (hrange c)), (h c).2.2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
